-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S128x128 : Shape := ⟨2, ![128, 128]⟩
abbrev S128 : Shape := ⟨1, ![128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16x2048x128 .f32) (main_arg1 : FVec F S16x2048x2048 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S16x2048x128 : Shape := ⟨3, ![16, 2048, 128]⟩
abbrev S16x2048x2048 : Shape := ⟨3, ![16, 2048, 2048]⟩
abbrev S128x128 : Shape := ⟨2, ![128, 128]⟩
abbrev S128 : Shape := ⟨1, ![128]⟩
abbrev S1x1024x1024 : Shape := ⟨3, ![1, 1024, 1024]⟩
abbrev S1x1024x128 : Shape := ⟨3, ![1, 1024, 128]⟩
abbrev S1024x128 : Shape := ⟨2, ![1024, 128]⟩
abbrev S1024x1024 : Shape := ⟨2, ![1024, 1024]⟩
abbrev S1x128 : Shape := ⟨2, ![1, 128]⟩
abbrev S1024 : Shape := ⟨1, ![1024]⟩
abbrev S1024x1 : Shape := ⟨2, ![1024, 1]⟩

abbrev nBuf : Space → Nat
  | .hbm => 17
  | .vmem => 33
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S16x2048x128, .f32⟩
  | .hbm, ⟨15, _⟩ => ⟨S16x2048x128, .f32⟩
  | .hbm, ⟨16, _⟩ => ⟨S16x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S128x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024x128, .f32⟩
  | .local _ .vmem, ⟨14, _⟩ => ⟨S1x1024x128, .f32⟩
  | .local _ .vmem, ⟨15, _⟩ => ⟨S128x128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S1x1024x128, .f32⟩
  | .local _ .vmem, ⟨20, _⟩ => ⟨S1x1024x128, .f32⟩
  | .local _ .vmem, ⟨21, _⟩ => ⟨S1024x128, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1024x128, .f32⟩
  | .local _ .vmem, ⟨25, _⟩ => ⟨S1x1024x128, .f32⟩
  | .local _ .vmem, ⟨26, _⟩ => ⟨S128x128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S1x1024x128, .f32⟩
  | .local _ .vmem, ⟨31, _⟩ => ⟨S1x1024x128, .f32⟩
  | .local _ .vmem, ⟨32, _⟩ => ⟨S1024x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![16, 2, 2], ![false, false, false]⟩

def k1_cond2 (i : grid1.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![16, 2, 2], ![false, false, false]⟩

def k2_cond2 (i : grid2.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 2 → Memref sig .tc .vmem S1x1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  shapeCasts_S1024x128_S1x1024x128 : S1024x128.ShapeCasts S1x1024x128
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x2048.size a
  hwx0_0 : ∀ i : grid0.Coords, EltTy.bits .f32 = 32 ∨ (Rect.block (s := S16x2048x2048) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S16x2048x128.size a
  hwx0_1 : ∀ i : grid0.Coords, EltTy.bits .f32 = 32 ∨ (Rect.block (s := S16x2048x128) S1x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S16x2048x128.size a
  hwx0_6 : ∀ i : grid0.Coords, EltTy.bits .f32 = 32 ∨ (Rect.block (s := S16x2048x128) S1x1024x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S16x2048x2048.size a
  hwx1_0 : ∀ i : grid1.Coords, EltTy.bits .f32 = 32 ∨ (Rect.block (s := S16x2048x2048) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S16x2048x128.size a
  hwx1_1 : ∀ i : grid1.Coords, EltTy.bits .f32 = 32 ∨ (Rect.block (s := S16x2048x128) S1x1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x128.size a ≤ S16x2048x128.size a
  hwx1_6 : ∀ i : grid1.Coords, EltTy.bits .f32 = 32 ∨ (Rect.block (s := S16x2048x128) S1x1024x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S16x2048x2048.size a
  hwx2_0 : ∀ i : grid2.Coords, EltTy.bits .f32 = 32 ∨ (Rect.block (s := S16x2048x2048) S1x1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x128.size a ≤ S16x2048x128.size a
  hwx2_1 : ∀ i : grid2.Coords, EltTy.bits .f32 = 32 ∨ (Rect.block (s := S16x2048x128) S1x1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x128.size a ≤ S16x2048x128.size a
  hwx2_6 : ∀ i : grid2.Coords, EltTy.bits .f32 = 32 ∨ (Rect.block (s := S16x2048x128) S1x1024x128.size (cc2_transform_6 i) (hinb2_6 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_arg1) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v2) S1x1024x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 125
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S16x2048x128, .f32⟩
  | .hbm, ⟨15, _⟩ => ⟨S16x2048x128, .f32⟩
  | .hbm, ⟨16, _⟩ => ⟨S1x1x128, .f32⟩
  | .hbm, ⟨17, _⟩ => ⟨S16x2048x128, .f32⟩
  | .hbm, ⟨18, _⟩ => ⟨S16x2048x128, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x128, .f32⟩
  | .hbm, ⟨26, _⟩ => ⟨S16x2048x128, .f32⟩
  | .hbm, ⟨27, _⟩ => ⟨S16x2048x128, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x128, .f32⟩
  | .hbm, ⟨35, _⟩ => ⟨S16x2048x128, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x128, .f32⟩
  | .hbm, ⟨41, _⟩ => ⟨S16x2048x128, .f32⟩
  | .hbm, ⟨42, _⟩ => ⟨S1x1x128, .f32⟩
  | .hbm, ⟨43, _⟩ => ⟨S16x2048x128, .f32⟩
  | .hbm, ⟨44, _⟩ => ⟨S16x2048x128, .f32⟩
  | .hbm, ⟨45, _⟩ => ⟨S1x1x128, .f32⟩
  | .hbm, ⟨46, _⟩ => ⟨S16x2048x128, .f32⟩
  | .hbm, ⟨47, _⟩ => ⟨S16x2048x128, .f32⟩
  | .hbm, ⟨48, _⟩ => ⟨S_, .f32⟩
  | .hbm, ⟨49, _⟩ => ⟨S16x2048x128, .f32⟩
  | .hbm, ⟨50, _⟩ => ⟨S16x2048x128, .f32⟩
  | .hbm, ⟨51, _⟩ => ⟨S16x2048x128, .f32⟩
  | .hbm, ⟨52, _⟩ => ⟨S16x2048x128, .f32⟩
  | .hbm, ⟨53, _⟩ => ⟨S1x1x128, .f32⟩
  | .hbm, ⟨54, _⟩ => ⟨S16x2048x128, .f32⟩
  | .hbm, ⟨55, _⟩ => ⟨S16x2048x128, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S16x2048x128, .f32⟩
  | .hbm, ⟨63, _⟩ => ⟨S16x2048x128, .f32⟩
  | .hbm, ⟨64, _⟩ => ⟨S16x2048x128, .f32⟩
  | .hbm, ⟨65, _⟩ => ⟨S_, .f32⟩
  | .hbm, ⟨66, _⟩ => ⟨S16x2048, .f32⟩
  | .hbm, ⟨67, _⟩ => ⟨S16x2048x1, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S16x2048x128, .f32⟩
  | .hbm, ⟨72, _⟩ => ⟨S16x2048x128, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1, .f32⟩
  | .hbm, ⟨77, _⟩ => ⟨S16x2048x128, .f32⟩
  | .hbm, ⟨78, _⟩ => ⟨S16x2048x128, .f32⟩
  | .hbm, ⟨79, _⟩ => ⟨S1x1x128, .f32⟩
  | .hbm, ⟨80, _⟩ => ⟨S16x2048x128, .f32⟩
  | .hbm, ⟨81, _⟩ => ⟨S16x2048x128, .f32⟩
  | .hbm, ⟨82, _⟩ => ⟨S1x1x128, .f32⟩
  | .hbm, ⟨83, _⟩ => ⟨S16x2048x128, .f32⟩
  | .hbm, ⟨84, _⟩ => ⟨S16x2048x128, .f32⟩
  | .hbm, ⟨85, _⟩ => ⟨S_, .f32⟩
  | .hbm, ⟨86, _⟩ => ⟨S16x2048x128, .f32⟩
  | .hbm, ⟨87, _⟩ => ⟨S16x2048x128, .f32⟩
  | .hbm, ⟨88, _⟩ => ⟨S16x2048x128, .f32⟩
  | .hbm, ⟨89, _⟩ => ⟨S16x2048x128, .f32⟩
  | .hbm, ⟨90, _⟩ => ⟨S1x1x128, .f32⟩
  | .hbm, ⟨91, _⟩ => ⟨S16x2048x128, .f32⟩
  | .hbm, ⟨92, _⟩ => ⟨S16x2048x128, .f32⟩
  | .hbm, ⟨93, _⟩ => ⟨S_, .f32⟩
  | .hbm, ⟨94, _⟩ => ⟨S16x2048, .f32⟩
  | .hbm, ⟨95, _⟩ => ⟨S16x2048x1, .f32⟩
  | .hbm, ⟨96, _⟩ => ⟨S_, .f32⟩
  | .hbm, ⟨97, _⟩ => ⟨S16x2048x1, .f32⟩
  | .hbm, ⟨98, _⟩ => ⟨S16x2048x1, .f32⟩
  | .hbm, ⟨99, _⟩ => ⟨S16x2048x128, .f32⟩
  | .hbm, ⟨100, _⟩ => ⟨S16x2048x128, .f32⟩
  | .hbm, ⟨101, _⟩ => ⟨S16x2048x128, .f32⟩
  | .hbm, ⟨102, _⟩ => ⟨S_, .f32⟩
  | .hbm, ⟨103, _⟩ => ⟨S16x2048, .f32⟩
  | .hbm, ⟨104, _⟩ => ⟨S16x2048x1, .f32⟩
  | .hbm, ⟨105, _⟩ => ⟨S_, .f32⟩
  | .hbm, ⟨106, _⟩ => ⟨S16x2048x1, .f32⟩
  | .hbm, ⟨107, _⟩ => ⟨S16x2048x1, .f32⟩
  | .hbm, ⟨108, _⟩ => ⟨S16x2048x128, .f32⟩
  | .hbm, ⟨109, _⟩ => ⟨S16x2048x128, .f32⟩
  | .hbm, ⟨110, _⟩ => ⟨S_, .f32⟩
  | .hbm, ⟨111, _⟩ => ⟨S16x2048x1, .f32⟩
  | .hbm, ⟨112, _⟩ => ⟨S16x2048x1, .f32⟩
  | .hbm, ⟨113, _⟩ => ⟨S16x2048x1, .f32⟩
  | .hbm, ⟨114, _⟩ => ⟨S16x2048x128, .f32⟩
  | .hbm, ⟨115, _⟩ => ⟨S16x2048x128, .f32⟩
  | .hbm, ⟨116, _⟩ => ⟨S1x1x128, .f32⟩
  | .hbm, ⟨117, _⟩ => ⟨S16x2048x128, .f32⟩
  | .hbm, ⟨118, _⟩ => ⟨S16x2048x128, .f32⟩
  | .hbm, ⟨119, _⟩ => ⟨S1x1x128, .f32⟩
  | .hbm, ⟨120, _⟩ => ⟨S16x2048x128, .f32⟩
  | .hbm, ⟨121, _⟩ => ⟨S16x2048x128, .f32⟩
  | .hbm, ⟨122, _⟩ => ⟨S_, .f32⟩
  | .hbm, ⟨123, _⟩ => ⟨S16x2048x128, .f32⟩
  | .hbm, ⟨124, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_9 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call2_cst : Ref sig .tc := ⟨.hbm, 122, rfl⟩
abbrev main_call2_v0 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  reducesTo_S16x2048x128_S16x2048_d2 : S16x2048x128.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x128_0_1_2 : S16x2048x1.BroadcastsInDim S16x2048x128 (![0, 1, 2] : Fin 3 → Fin S16x2048x128.rank)
  bcast_S_S16x2048x128 : S_.BroadcastsInDim S16x2048x128 (![] : Fin 0 → Fin S16x2048x128.rank)
  dot_S16x2048x2048_S16x2048x128_S16x2048x128_2_1_1_2_0_0_wf : DotDims.WF S16x2048x2048 S16x2048x128 S16x2048x128 [2] [1] [1] [2] [0] [0]
  dot_S16x2048x128_S128x128_S16x2048x128_2_0_01_1_n_n_wf : DotDims.WF S16x2048x128 S128x128 S16x2048x128 [2] [0] [0, 1] [1] [] []

variable [Facts₀]

def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf
def dot_S16x2048x128_S128x128_S16x2048x128_2_0_01_1_n_n : DotDims S16x2048x128 S128x128 S16x2048x128 where
  lhsContracting := [2]
  rhsContracting := [0]
  lhsNonContracting := [0, 1]
  rhsNonContracting := [1]
  lhsBatch := []
  rhsBatch := []
  wf := dot_S16x2048x128_S128x128_S16x2048x128_2_0_01_1_n_n_wf

class Facts : Prop extends Facts₀ where

variable [Facts]
-- ==== Proof.K.Body.lean ====
import proofs.«151264_j87634512708198_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zOne : (![0] : Fin 1 → Nat) = fun _ => 0 := funext fun a => by fin_cases a <;> rfl
theorem zTwo : (![0, 0] : Fin 2 → Nat) = fun _ => 0 := funext fun a => by fin_cases a <;> rfl
theorem zThree : (![0, 0, 0] : Fin 3 → Nat) = fun _ => 0 := funext fun a => by fin_cases a <;> rfl

theorem cc1_eq : @cc1__gcn_layer_kernel F _ _ = @cc0__gcn_layer_kernel F _ _ := rfl
theorem cc2_eq : @cc2__gcn_layer_kernel F _ _ = @cc0__gcn_layer_kernel F _ _ := rfl

abbrev condR (i : grid0.Coords) : Prop := (Scalar.cmpi .ne (Scalar.extui (Scalar.cmpi .eq (BitVec.ofNat 32 (i 2).val) 0#32)) 0#32) = 1#1
abbrev condN (i : grid0.Coords) : Prop := k0_cond2 i = 1#1

variable (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S1x1024x128 .f32) (harg9 : arg9.IsWhole) (arg10 : Memref sig .tc .vmem S1024x128 .f32) (harg10 : arg10.IsWhole)
  (x0 : Vec F S1x1024x1024 .f32) (x1 : Vec F S1x1024x128 .f32) (x2 : Vec F S128x128 .f32) (x3 x4 x5 : Vec F S128 .f32)

variable {D0 D1 D2 D3 D4 D5 D6 : Type} (b6 : D6 → Vec F S1x1024x128 .f32)

set_option maxHeartbeats 2000000 in
/-- Where the reduction starts the body leaves the accumulator at zero plus the block product, whatever it held. -/
theorem body_reset (hc0 : condR i) (hc1 : ¬condN i) (E : Set ℕ) (K : PUnit → sProp 𝕄) :
    iprop((∃ d, owns (c : Thread nD τ) arg10 fullShare d) ∗ ((∃ _ : D0, owns (c : Thread nD τ) arg3 fullShare x0) ∗ (∃ _ : D1, owns (c : Thread nD τ) arg4 fullShare x1) ∗ (∃ _ : D2, owns (c : Thread nD τ) arg5 fullShare x2) ∗ (∃ _ : D3, owns (c : Thread nD τ) arg6 fullShare x3) ∗ (∃ _ : D4, owns (c : Thread nD τ) arg7 fullShare x4) ∗ (∃ _ : D5, owns (c : Thread nD τ) arg8 fullShare x5) ∗ (∃ d, owns (c : Thread nD τ) arg9 fullShare (b6 d)))
        ∗ (iprop(owns (c : Thread nD τ) arg10 fullShare (k0_pay2 x0 x1 k0_pay1) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare (b6 d))) -∗ K ⟨⟩))
      ⊢ wp frame (wpE (defs₀ (F := F)) Variants.none c none) E (cc0__gcn_layer_kernel i arg3 harg3 arg4 harg4 arg5 harg5 arg6 harg6 arg7 harg7 arg8 harg8 arg9 harg9 arg10 harg10) K := by
  simp only [cc0__gcn_layer_kernel_eq_skeleton]; unfold cc0__gcn_layer_kernel_skel
  unfold owns
  iintro ⟨⟨%ds0, %fs0, -, HS0⟩, ⟨⟨%e0, %f0, %hf0, H0⟩, ⟨%e1, %f1, %hf1, H1⟩, ⟨%e2, %f2, %hf2, H2⟩, ⟨%e3, %f3, %hf3, H3⟩, ⟨%e4, %f4, %hf4, H4⟩, ⟨%e5, %f5, %hf5, H5⟩, ⟨%d6, %f6, %hf6, H6⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | exact hc0 | exact hc1)
  sl_step
  iapply Hk
  isplitl [HS0]
  · iexists _; isplitr
    swap; · iexact HS0
    ipureintro
    rw [View.read_writes_eq_canon _ _ _ (View.cover_of_tiledL _ S1024x128.size (by sl_kernel_rfl))]
    sl_unfold_words
    rw [View.canon_cons_unit_zero (S := S1024x128) zTwo, View.readCov_unit_zero (S := S1024x128) _ zTwo]
    simp only [View.readAt_eq_ld, harg3.read_unread, harg4.read_unread, View.ld_unit_zero (S := S1x1024x1024) zThree,
      View.ld_unit_zero (S := S1x1024x128) zThree]
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists d6; iexists _; isplitr; · ipureintro; exact harg9.read_unread _
  iexact H6

set_option maxHeartbeats 2000000 in
/-- Where it ends the body adds the block product to what the accumulator held and stores the normalised rows. -/
theorem body_norm (hc0 : ¬condR i) (hc1 : condN i) (xs : Vec F S1024x128 .f32) (E : Set ℕ) (K : PUnit → sProp 𝕄) :
    iprop(owns (c : Thread nD τ) arg10 fullShare xs ∗ ((∃ _ : D0, owns (c : Thread nD τ) arg3 fullShare x0) ∗ (∃ _ : D1, owns (c : Thread nD τ) arg4 fullShare x1) ∗ (∃ _ : D2, owns (c : Thread nD τ) arg5 fullShare x2) ∗ (∃ _ : D3, owns (c : Thread nD τ) arg6 fullShare x3) ∗ (∃ _ : D4, owns (c : Thread nD τ) arg7 fullShare x4) ∗ (∃ _ : D5, owns (c : Thread nD τ) arg8 fullShare x5) ∗ (∃ d, owns (c : Thread nD τ) arg9 fullShare (b6 d)))
        ∗ (iprop(owns (c : Thread nD τ) arg10 fullShare (k0_pay2 x0 x1 xs) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay3 (k0_pay2 x0 x1 xs) x2 x3 x4 x5)) -∗ K ⟨⟩))
      ⊢ wp frame (wpE (defs₀ (F := F)) Variants.none c none) E (cc0__gcn_layer_kernel i arg3 harg3 arg4 harg4 arg5 harg5 arg6 harg6 arg7 harg7 arg8 harg8 arg9 harg9 arg10 harg10) K := by
  simp only [cc0__gcn_layer_kernel_eq_skeleton]; unfold cc0__gcn_layer_kernel_skel
  unfold owns
  iintro ⟨⟨%fs0, %hfs0, HS0⟩, ⟨⟨%e0, %f0, %hf0, H0⟩, ⟨%e1, %f1, %hf1, H1⟩, ⟨%e2, %f2, %hf2, H2⟩, ⟨%e3, %f3, %hf3, H3⟩, ⟨%e4, %f4, %hf4, H4⟩, ⟨%e5, %f5, %hf5, H5⟩, ⟨%d6, %f6, -, H6⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
  sl_exec (disch := first | exact hc0 | exact hc1)
  sl_step
  iapply Hk
  isplitl [HS0]
  · iexists _; isplitr
    swap; · iexact HS0
    ipureintro
    rw [View.read_writes_eq_canon _ _ _ (View.cover_of_tiledL _ S1024x128.size (by sl_kernel_rfl))]
    sl_unfold_words
    rw [View.canon_unit_zero (S := S1024x128) zTwo]
    simp only [View.readAt_eq_ld, harg3.read_unread, harg4.read_unread, harg10.read_unread, View.ld_unit_zero (S := S1x1024x1024) zThree,
      View.ld_unit_zero (S := S1x1024x128) zThree, View.ld_unit_zero (S := S1024x128) zTwo]
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact H6
  ipureintro
  rw [View.read_writes_eq_canon _ _ _ (View.cover_of_tiledL _ S1x1024x128.size (by sl_kernel_rfl))]
  sl_unfold_words
  rw [View.canon_unit_zero (S := S1x1024x128) zThree, View.readCov_unit_zero (S := S1024x128) _ zTwo]
  simp only [View.readAt_eq_ld, harg3.read_unread, harg4.read_unread, harg5.read_unread, harg6.read_unread, harg7.read_unread,
    harg8.read_unread, harg10.read_unread, View.ld_unit_zero (S := S1x1024x1024) zThree, View.ld_unit_zero (S := S1x1024x128) zThree,
    View.ld_unit_zero (S := S1024x128) zTwo, View.ld_unit_zero (S := S128x128) zTwo, View.ld_unit_zero (S := S128) zOne]

end Cert.Kernel.Hand

end
-- ==== Proof.K.R0.Frame.lean ====
import proofs.«151264_j87634512708198_1_alg».proof.Proof.K.Body
import proofs.«151264_j87634512708198_1_alg».proof.Proof.Gen.Kernel.Launch
import proofs.«151264_j87634512708198_1_alg».proof.Proof.Gen.Kernel.Points
import Idealize.ShloMosaic.Lib.Pipeline.RegionsLoop
import Idealize.ShloMosaic.Lib.Pipeline.FrameSuffix

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hcond0_R : ∀ t : Fin cfg0.N, condR (grid0.coords t) ↔ t.val % 2 = 0 :=
  (by decide +kernel : ∀ t : Fin grid0.N, condR (grid0.coords t) ↔ t.val % 2 = 0)
theorem hcond0_N : ∀ t : Fin cfg0.N, condN (grid0.coords t) ↔ t.val % 2 = 1 :=
  (by decide +kernel : ∀ t : Fin grid0.N, condN (grid0.coords t) ↔ t.val % 2 = 1)

theorem idleAt0_6 : ∀ t : Fin cfg0.N, t.val % 2 = 0 → cfg0.idle 6 (grid0.coords t) = true := by decide +kernel
theorem noFlush0_6 : ∀ t : Fin cfg0.N, t.val % 2 = 0 → (cfg0.win 6).flush t = false := by decide +kernel
theorem liveAt0_6 : ∀ t : Fin cfg0.N, ¬t.val % 2 = 0 → cfg0.idle 6 (grid0.coords t) = false := by decide +kernel

abbrev scM0 : Memref sig .tc .vmem S1024x128 .f32 := Memref.whole cc0_scratch0

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole, bigSepL]; try rfl

theorem even0 (t : Fin cfg0.N) (h0 : t.val % 2 = 0) : condR (grid0.coords t) ∧ ¬condN (grid0.coords t) :=
  ⟨(hcond0_R t).mpr h0, fun h => by have := (hcond0_N t).mp h; omega⟩
theorem odd0 (t : Fin cfg0.N) (h0 : ¬t.val % 2 = 0) : ¬condR (grid0.coords t) ∧ condN (grid0.coords t) :=
  ⟨fun h => h0 ((hcond0_R t).mp h), (hcond0_N t).mpr (by omega)⟩

/-- The accumulator after position `n`: its block product added onto zero at an even position, onto the one before's otherwise. -/
def acc0 (c : Dev nD) (n : ℕ) (hn : n < cfg0.N) : Vec F S1024x128 .f32 :=
  k0_pay2 (iblk0 V c 0 ⟨n, hn⟩) (iblk0 V c 1 ⟨n, hn⟩)
    (if n % 2 = 0 then k0_pay1 else k0_pay2 (iblk0 V c 0 ⟨n - 1, by omega⟩) (iblk0 V c 1 ⟨n - 1, by omega⟩) k0_pay1)

/-- The output block a position stores: the accumulator's rows normalised. -/
def res0 (c : Dev nD) (t : Fin cfg0.N) : Vec F S1x1024x128 .f32 :=
  k0_pay3 (acc0 V c t.val t.isLt) (iblk0 V c 2 t) (iblk0 V c 3 t) (iblk0 V c 4 t) (iblk0 V c 5 t)

theorem acc0_even (c : Dev nD) (n : ℕ) (hn : n < cfg0.N) (h0 : n % 2 = 0) :
    acc0 V c n hn = k0_pay2 (iblk0 V c 0 ⟨n, hn⟩) (iblk0 V c 1 ⟨n, hn⟩) k0_pay1 := by
  unfold acc0; rw [if_pos h0]

theorem acc0_odd (c : Dev nD) (n : ℕ) (hn : n < cfg0.N) (h0 : ¬n % 2 = 0) :
    acc0 V c n hn = k0_pay2 (iblk0 V c 0 ⟨n, hn⟩) (iblk0 V c 1 ⟨n, hn⟩) (acc0 V c (n - 1) (by omega)) := by
  unfold acc0; rw [if_neg h0, if_pos (by omega)]

abbrev prev0 (t : Fin cfg0.N) : Fin cfg0.N := ⟨t.val - 1, Nat.lt_of_le_of_lt (Nat.sub_le _ _) t.isLt⟩

theorem res0_odd (c : Dev nD) (t : Fin cfg0.N) (h0 : ¬t.val % 2 = 0) :
    res0 V c t = k0_pay3 (k0_pay2 (iblk0 V c 0 t) (iblk0 V c 1 t) (k0_pay2 (iblk0 V c 0 (prev0 t)) (iblk0 V c 1 (prev0 t)) k0_pay1))
      (iblk0 V c 2 t) (iblk0 V c 3 t) (iblk0 V c 4 t) (iblk0 V c 5 t) := by
  unfold res0; rw [acc0_odd V c t.val t.isLt h0, acc0_even V c (t.val - 1) _ (by omega)]

def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => res0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_6 (c : Dev nD) (t : Fin cfg0.N) : (dat0 V c).after 6 t = res0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem leaves0_in (c : Dev nD) (t : Fin cfg0.N) :
    (dat0 V c).leavesExact 0 t = owns (c : Thread nD τ) (st0_0 t) fullShare (iblk0 V c 0 t) ∧
    (dat0 V c).leavesExact 1 t = owns (c : Thread nD τ) (st0_1 t) fullShare (iblk0 V c 1 t) ∧
    (dat0 V c).leavesExact 2 t = owns (c : Thread nD τ) (st0_2 t) fullShare (iblk0 V c 2 t) ∧
    (dat0 V c).leavesExact 3 t = owns (c : Thread nD τ) (st0_3 t) fullShare (iblk0 V c 3 t) ∧
    (dat0 V c).leavesExact 4 t = owns (c : Thread nD τ) (st0_4 t) fullShare (iblk0 V c 4 t) ∧
    (dat0 V c).leavesExact 5 t = owns (c : Thread nD τ) (st0_5 t) fullShare (iblk0 V c 5 t) :=
  ⟨rfl, rfl, rfl, rfl, rfl, rfl⟩

set_option maxHeartbeats 4800000 in
/-- The invariant hands the body the accumulator (at anything at an even position) and takes it back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [show bodyAt0 (F := F) t = cc0__gcn_layer_kernel (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM0 (Memref.isWhole_whole _) from rfl]
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  obtain ⟨e0, e1, e2, e3, e4, e5⟩ := leaves0_in V c t
  rw [e0, e1, e2, e3, e4, e5]
  by_cases h0 : t.val % 2 = 0
  · rw [Dat.leavesExact_idle (dat0 V c) 6 t (idleAt0_6 t h0) (noFlush0_6 t h0), acc0_even V c t.val t.isLt h0]
    have hΦ : (dat0 V c).Φ t.castSucc ⊢ iprop(iprop((∃ d, owns (c : Thread nD τ) scM0 fullShare d) ∗ others0 c) ∗ (∃ r, prngReg c r)) := by
      by_cases hz : t.val = 0
      · rw [PhiS0_castSucc V c t, PhiS0_zero V c _ _ hz, PhiA0_eq]
      · rw [PhiS0_castSucc V c t, PhiS0_pos V c _ _ hz]
        iintro ⟨⟨HS, Hot⟩, Hg⟩
        isplitl [HS Hot]
        · isplitl [HS]
          · iexists _; iexact HS
          iexact Hot
        iexact Hg
    iintro ⟨HΦ, Ho, HW⟩
    ihave HΦ' := hΦ $$ HΦ
    icases HΦ' with ⟨⟨HS, Hot⟩, Hg⟩
    iapply (body_reset c (grid0.coords t) _ _ _ _ _ _ _ _ _ _ _ _ _ _ _ _ (iblk0 V c 0 t) (iblk0 V c 1 t) (iblk0 V c 2 t) (iblk0 V c 3 t) (iblk0 V c 4 t) (iblk0 V c 5 t) (fun d => (dat0 V c).before 6 t d) (even0 t h0).1 (even0 t h0).2 Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW
  · rw [show (dat0 V c).leavesExact 6 t = owns (c : Thread nD τ) (st0_6 t) fullShare ((dat0 V c).after 6 t) from by
      unfold Dat.leavesExact; rw [liveAt0_6 t h0], after0_6]
    have hz : t.val ≠ 0 := fun hz => h0 (by rw [hz])
    unfold res0
    rw [acc0_odd V c t.val t.isLt h0, PhiS0_castSucc V c t, PhiS0_pos V c _ _ hz]
    iintro ⟨⟨⟨HS, Hot⟩, Hg⟩, Ho, HW⟩
    iapply (body_norm c (grid0.coords t) _ _ _ _ _ _ _ _ _ _ _ _ _ _ _ _ (iblk0 V c 0 t) (iblk0 V c 1 t) (iblk0 V c 2 t) (iblk0 V c 3 t) (iblk0 V c 4 t) (iblk0 V c 5 t) (fun d => (dat0 V c).before 6 t d) (odd0 t h0).1 (odd0 t h0).2 _ Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have hN : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS, Hot⟩, Hg⟩
  isplitl [HS Hot]
  · isplitl [HS]
    · iexists _; iexact HS
    iexact Hot
  iexact Hg

end Cert.Kernel.Hand

end
-- ==== Proof.K.R1.Frame.lean ====
import proofs.«151264_j87634512708198_1_alg».proof.Proof.K.Body
import proofs.«151264_j87634512708198_1_alg».proof.Proof.Gen.Kernel.Launch
import proofs.«151264_j87634512708198_1_alg».proof.Proof.Gen.Kernel.Points
import Idealize.ShloMosaic.Lib.Pipeline.RegionsLoop
import Idealize.ShloMosaic.Lib.Pipeline.FrameSuffix

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hcond1_R : ∀ t : Fin cfg1.N, condR (grid1.coords t) ↔ t.val % 2 = 0 :=
  (by decide +kernel : ∀ t : Fin grid1.N, condR (grid1.coords t) ↔ t.val % 2 = 0)
theorem hcond1_N : ∀ t : Fin cfg1.N, condN (grid1.coords t) ↔ t.val % 2 = 1 :=
  (by decide +kernel : ∀ t : Fin grid1.N, condN (grid1.coords t) ↔ t.val % 2 = 1)

theorem idleAt1_6 : ∀ t : Fin cfg1.N, t.val % 2 = 0 → cfg1.idle 6 (grid1.coords t) = true := by decide +kernel
theorem noFlush1_6 : ∀ t : Fin cfg1.N, t.val % 2 = 0 → (cfg1.win 6).flush t = false := by decide +kernel
theorem liveAt1_6 : ∀ t : Fin cfg1.N, ¬t.val % 2 = 0 → cfg1.idle 6 (grid1.coords t) = false := by decide +kernel

abbrev scM1 : Memref sig .tc .vmem S1024x128 .f32 := Memref.whole cc1_scratch0

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole, bigSepL]; try rfl

theorem even1 (t : Fin cfg1.N) (h0 : t.val % 2 = 0) : condR (grid1.coords t) ∧ ¬condN (grid1.coords t) :=
  ⟨(hcond1_R t).mpr h0, fun h => by have := (hcond1_N t).mp h; omega⟩
theorem odd1 (t : Fin cfg1.N) (h0 : ¬t.val % 2 = 0) : ¬condR (grid1.coords t) ∧ condN (grid1.coords t) :=
  ⟨fun h => h0 ((hcond1_R t).mp h), (hcond1_N t).mpr (by omega)⟩

/-- The accumulator after position `n`: its block product added onto zero at an even position, onto the one before's otherwise. -/
def acc1 (c : Dev nD) (n : ℕ) (hn : n < cfg1.N) : Vec F S1024x128 .f32 :=
  k0_pay2 (iblk1 V c 0 ⟨n, hn⟩) (iblk1 V c 1 ⟨n, hn⟩)
    (if n % 2 = 0 then k0_pay1 else k0_pay2 (iblk1 V c 0 ⟨n - 1, by omega⟩) (iblk1 V c 1 ⟨n - 1, by omega⟩) k0_pay1)

/-- The output block a position stores: the accumulator's rows normalised. -/
def res1 (c : Dev nD) (t : Fin cfg1.N) : Vec F S1x1024x128 .f32 :=
  k0_pay3 (acc1 V c t.val t.isLt) (iblk1 V c 2 t) (iblk1 V c 3 t) (iblk1 V c 4 t) (iblk1 V c 5 t)

theorem acc1_even (c : Dev nD) (n : ℕ) (hn : n < cfg1.N) (h0 : n % 2 = 0) :
    acc1 V c n hn = k0_pay2 (iblk1 V c 0 ⟨n, hn⟩) (iblk1 V c 1 ⟨n, hn⟩) k0_pay1 := by
  unfold acc1; rw [if_pos h0]

theorem acc1_odd (c : Dev nD) (n : ℕ) (hn : n < cfg1.N) (h0 : ¬n % 2 = 0) :
    acc1 V c n hn = k0_pay2 (iblk1 V c 0 ⟨n, hn⟩) (iblk1 V c 1 ⟨n, hn⟩) (acc1 V c (n - 1) (by omega)) := by
  unfold acc1; rw [if_neg h0, if_pos (by omega)]

abbrev prev1 (t : Fin cfg1.N) : Fin cfg1.N := ⟨t.val - 1, Nat.lt_of_le_of_lt (Nat.sub_le _ _) t.isLt⟩

theorem res1_odd (c : Dev nD) (t : Fin cfg1.N) (h0 : ¬t.val % 2 = 0) :
    res1 V c t = k0_pay3 (k0_pay2 (iblk1 V c 0 t) (iblk1 V c 1 t) (k0_pay2 (iblk1 V c 0 (prev1 t)) (iblk1 V c 1 (prev1 t)) k0_pay1))
      (iblk1 V c 2 t) (iblk1 V c 3 t) (iblk1 V c 4 t) (iblk1 V c 5 t) := by
  unfold res1; rw [acc1_odd V c t.val t.isLt h0, acc1_even V c (t.val - 1) _ (by omega)]

def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => res1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_6 (c : Dev nD) (t : Fin cfg1.N) : (dat1 V c).after 6 t = res1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_in (c : Dev nD) (t : Fin cfg1.N) :
    (dat1 V c).leavesExact 0 t = owns (c : Thread nD τ) (st1_0 t) fullShare (iblk1 V c 0 t) ∧
    (dat1 V c).leavesExact 1 t = owns (c : Thread nD τ) (st1_1 t) fullShare (iblk1 V c 1 t) ∧
    (dat1 V c).leavesExact 2 t = owns (c : Thread nD τ) (st1_2 t) fullShare (iblk1 V c 2 t) ∧
    (dat1 V c).leavesExact 3 t = owns (c : Thread nD τ) (st1_3 t) fullShare (iblk1 V c 3 t) ∧
    (dat1 V c).leavesExact 4 t = owns (c : Thread nD τ) (st1_4 t) fullShare (iblk1 V c 4 t) ∧
    (dat1 V c).leavesExact 5 t = owns (c : Thread nD τ) (st1_5 t) fullShare (iblk1 V c 5 t) :=
  ⟨rfl, rfl, rfl, rfl, rfl, rfl⟩

set_option maxHeartbeats 4800000 in
/-- The invariant hands the body the accumulator (at anything at an even position) and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [show bodyAt1 (F := F) t = cc0__gcn_layer_kernel (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) scM1 (Memref.isWhole_whole _) from rfl]
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  obtain ⟨e0, e1, e2, e3, e4, e5⟩ := leaves1_in V c t
  rw [e0, e1, e2, e3, e4, e5]
  by_cases h0 : t.val % 2 = 0
  · rw [Dat.leavesExact_idle (dat1 V c) 6 t (idleAt1_6 t h0) (noFlush1_6 t h0), acc1_even V c t.val t.isLt h0]
    have hΦ : (dat1 V c).Φ t.castSucc ⊢ iprop(iprop((∃ d, owns (c : Thread nD τ) scM1 fullShare d) ∗ others1 c) ∗ (∃ r, prngReg c r)) := by
      by_cases hz : t.val = 0
      · rw [PhiS1_castSucc V c t, PhiS1_zero V c _ _ hz, PhiA1_eq]
      · rw [PhiS1_castSucc V c t, PhiS1_pos V c _ _ hz]
        iintro ⟨⟨HS, Hot⟩, Hg⟩
        isplitl [HS Hot]
        · isplitl [HS]
          · iexists _; iexact HS
          iexact Hot
        iexact Hg
    iintro ⟨HΦ, Ho, HW⟩
    ihave HΦ' := hΦ $$ HΦ
    icases HΦ' with ⟨⟨HS, Hot⟩, Hg⟩
    iapply (body_reset c (grid1.coords t) _ _ _ _ _ _ _ _ _ _ _ _ _ _ _ _ (iblk1 V c 0 t) (iblk1 V c 1 t) (iblk1 V c 2 t) (iblk1 V c 3 t) (iblk1 V c 4 t) (iblk1 V c 5 t) (fun d => (dat1 V c).before 6 t d) (even1 t h0).1 (even1 t h0).2 Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW
  · rw [show (dat1 V c).leavesExact 6 t = owns (c : Thread nD τ) (st1_6 t) fullShare ((dat1 V c).after 6 t) from by
      unfold Dat.leavesExact; rw [liveAt1_6 t h0], after1_6]
    have hz : t.val ≠ 0 := fun hz => h0 (by rw [hz])
    unfold res1
    rw [acc1_odd V c t.val t.isLt h0, PhiS1_castSucc V c t, PhiS1_pos V c _ _ hz]
    iintro ⟨⟨⟨HS, Hot⟩, Hg⟩, Ho, HW⟩
    iapply (body_norm c (grid1.coords t) _ _ _ _ _ _ _ _ _ _ _ _ _ _ _ _ (iblk1 V c 0 t) (iblk1 V c 1 t) (iblk1 V c 2 t) (iblk1 V c 3 t) (iblk1 V c 4 t) (iblk1 V c 5 t) (fun d => (dat1 V c).before 6 t d) (odd1 t h0).1 (odd1 t h0).2 _ Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hN : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨⟨HS, Hot⟩, Hg⟩
  isplitl [HS Hot]
  · isplitl [HS]
    · iexists _; iexact HS
    iexact Hot
  iexact Hg

end Cert.Kernel.Hand

end
-- ==== Proof.K.R2.Frame.lean ====
import proofs.«151264_j87634512708198_1_alg».proof.Proof.K.Body
import proofs.«151264_j87634512708198_1_alg».proof.Proof.Gen.Kernel.Launch
import proofs.«151264_j87634512708198_1_alg».proof.Proof.Gen.Kernel.Points
import Idealize.ShloMosaic.Lib.Pipeline.RegionsLoop
import Idealize.ShloMosaic.Lib.Pipeline.FrameSuffix

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hcond2_R : ∀ t : Fin cfg2.N, condR (grid2.coords t) ↔ t.val % 2 = 0 :=
  (by decide +kernel : ∀ t : Fin grid2.N, condR (grid2.coords t) ↔ t.val % 2 = 0)
theorem hcond2_N : ∀ t : Fin cfg2.N, condN (grid2.coords t) ↔ t.val % 2 = 1 :=
  (by decide +kernel : ∀ t : Fin grid2.N, condN (grid2.coords t) ↔ t.val % 2 = 1)

theorem idleAt2_6 : ∀ t : Fin cfg2.N, t.val % 2 = 0 → cfg2.idle 6 (grid2.coords t) = true := by decide +kernel
theorem noFlush2_6 : ∀ t : Fin cfg2.N, t.val % 2 = 0 → (cfg2.win 6).flush t = false := by decide +kernel
theorem liveAt2_6 : ∀ t : Fin cfg2.N, ¬t.val % 2 = 0 → cfg2.idle 6 (grid2.coords t) = false := by decide +kernel

abbrev scM2 : Memref sig .tc .vmem S1024x128 .f32 := Memref.whole cc2_scratch0

abbrev others2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [scM2, owns_whole, bigSepL]; try rfl

theorem even2 (t : Fin cfg2.N) (h0 : t.val % 2 = 0) : condR (grid2.coords t) ∧ ¬condN (grid2.coords t) :=
  ⟨(hcond2_R t).mpr h0, fun h => by have := (hcond2_N t).mp h; omega⟩
theorem odd2 (t : Fin cfg2.N) (h0 : ¬t.val % 2 = 0) : ¬condR (grid2.coords t) ∧ condN (grid2.coords t) :=
  ⟨fun h => h0 ((hcond2_R t).mp h), (hcond2_N t).mpr (by omega)⟩

/-- The accumulator after position `n`: its block product added onto zero at an even position, onto the one before's otherwise. -/
def acc2 (c : Dev nD) (n : ℕ) (hn : n < cfg2.N) : Vec F S1024x128 .f32 :=
  k0_pay2 (iblk2 V c 0 ⟨n, hn⟩) (iblk2 V c 1 ⟨n, hn⟩)
    (if n % 2 = 0 then k0_pay1 else k0_pay2 (iblk2 V c 0 ⟨n - 1, by omega⟩) (iblk2 V c 1 ⟨n - 1, by omega⟩) k0_pay1)

/-- The output block a position stores: the accumulator's rows normalised. -/
def res2 (c : Dev nD) (t : Fin cfg2.N) : Vec F S1x1024x128 .f32 :=
  k0_pay3 (acc2 V c t.val t.isLt) (iblk2 V c 2 t) (iblk2 V c 3 t) (iblk2 V c 4 t) (iblk2 V c 5 t)

theorem acc2_even (c : Dev nD) (n : ℕ) (hn : n < cfg2.N) (h0 : n % 2 = 0) :
    acc2 V c n hn = k0_pay2 (iblk2 V c 0 ⟨n, hn⟩) (iblk2 V c 1 ⟨n, hn⟩) k0_pay1 := by
  unfold acc2; rw [if_pos h0]

theorem acc2_odd (c : Dev nD) (n : ℕ) (hn : n < cfg2.N) (h0 : ¬n % 2 = 0) :
    acc2 V c n hn = k0_pay2 (iblk2 V c 0 ⟨n, hn⟩) (iblk2 V c 1 ⟨n, hn⟩) (acc2 V c (n - 1) (by omega)) := by
  unfold acc2; rw [if_neg h0, if_pos (by omega)]

abbrev prev2 (t : Fin cfg2.N) : Fin cfg2.N := ⟨t.val - 1, Nat.lt_of_le_of_lt (Nat.sub_le _ _) t.isLt⟩

theorem res2_odd (c : Dev nD) (t : Fin cfg2.N) (h0 : ¬t.val % 2 = 0) :
    res2 V c t = k0_pay3 (k0_pay2 (iblk2 V c 0 t) (iblk2 V c 1 t) (k0_pay2 (iblk2 V c 0 (prev2 t)) (iblk2 V c 1 (prev2 t)) k0_pay1))
      (iblk2 V c 2 t) (iblk2 V c 3 t) (iblk2 V c 4 t) (iblk2 V c 5 t) := by
  unfold res2; rw [acc2_odd V c t.val t.isLt h0, acc2_even V c (t.val - 1) _ (by omega)]

def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ others2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => res2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_6 (c : Dev nD) (t : Fin cfg2.N) : (dat2 V c).after 6 t = res2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem leaves2_in (c : Dev nD) (t : Fin cfg2.N) :
    (dat2 V c).leavesExact 0 t = owns (c : Thread nD τ) (st2_0 t) fullShare (iblk2 V c 0 t) ∧
    (dat2 V c).leavesExact 1 t = owns (c : Thread nD τ) (st2_1 t) fullShare (iblk2 V c 1 t) ∧
    (dat2 V c).leavesExact 2 t = owns (c : Thread nD τ) (st2_2 t) fullShare (iblk2 V c 2 t) ∧
    (dat2 V c).leavesExact 3 t = owns (c : Thread nD τ) (st2_3 t) fullShare (iblk2 V c 3 t) ∧
    (dat2 V c).leavesExact 4 t = owns (c : Thread nD τ) (st2_4 t) fullShare (iblk2 V c 4 t) ∧
    (dat2 V c).leavesExact 5 t = owns (c : Thread nD τ) (st2_5 t) fullShare (iblk2 V c 5 t) :=
  ⟨rfl, rfl, rfl, rfl, rfl, rfl⟩

set_option maxHeartbeats 4800000 in
/-- The invariant hands the body the accumulator (at anything at an even position) and takes it back at this position's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [show bodyAt2 (F := F) t = cc0__gcn_layer_kernel (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) scM2 (Memref.isWhole_whole _) from rfl]
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  obtain ⟨e0, e1, e2, e3, e4, e5⟩ := leaves2_in V c t
  rw [e0, e1, e2, e3, e4, e5]
  by_cases h0 : t.val % 2 = 0
  · rw [Dat.leavesExact_idle (dat2 V c) 6 t (idleAt2_6 t h0) (noFlush2_6 t h0), acc2_even V c t.val t.isLt h0]
    have hΦ : (dat2 V c).Φ t.castSucc ⊢ iprop(iprop((∃ d, owns (c : Thread nD τ) scM2 fullShare d) ∗ others2 c) ∗ (∃ r, prngReg c r)) := by
      by_cases hz : t.val = 0
      · rw [PhiS2_castSucc V c t, PhiS2_zero V c _ _ hz, PhiA2_eq]
      · rw [PhiS2_castSucc V c t, PhiS2_pos V c _ _ hz]
        iintro ⟨⟨HS, Hot⟩, Hg⟩
        isplitl [HS Hot]
        · isplitl [HS]
          · iexists _; iexact HS
          iexact Hot
        iexact Hg
    iintro ⟨HΦ, Ho, HW⟩
    ihave HΦ' := hΦ $$ HΦ
    icases HΦ' with ⟨⟨HS, Hot⟩, Hg⟩
    iapply (body_reset c (grid2.coords t) _ _ _ _ _ _ _ _ _ _ _ _ _ _ _ _ (iblk2 V c 0 t) (iblk2 V c 1 t) (iblk2 V c 2 t) (iblk2 V c 3 t) (iblk2 V c 4 t) (iblk2 V c 5 t) (fun d => (dat2 V c).before 6 t d) (even2 t h0).1 (even2 t h0).2 Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW
  · rw [show (dat2 V c).leavesExact 6 t = owns (c : Thread nD τ) (st2_6 t) fullShare ((dat2 V c).after 6 t) from by
      unfold Dat.leavesExact; rw [liveAt2_6 t h0], after2_6]
    have hz : t.val ≠ 0 := fun hz => h0 (by rw [hz])
    unfold res2
    rw [acc2_odd V c t.val t.isLt h0, PhiS2_castSucc V c t, PhiS2_pos V c _ _ hz]
    iintro ⟨⟨⟨HS, Hot⟩, Hg⟩, Ho, HW⟩
    iapply (body_norm c (grid2.coords t) _ _ _ _ _ _ _ _ _ _ _ _ _ _ _ _ (iblk2 V c 0 t) (iblk2 V c 1 t) (iblk2 V c 2 t) (iblk2 V c 3 t) (iblk2 V c 4 t) (iblk2 V c 5 t) (fun d => (dat2 V c).before 6 t d) (odd2 t h0).1 (odd2 t h0).2 _ Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have hN : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ hN, PhiA2_eq]
  iintro ⟨⟨HS, Hot⟩, Hg⟩
  isplitl [HS Hot]
  · isplitl [HS]
    · iexists _; iexact HS
    iexact Hot
  iexact Hg

end Cert.Kernel.Hand

end
-- ==== Proof.LibRegionHeld.lean ====
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

section Exit

variable {gr : Nat} {Wn : Nat} (win : Fin Wn → WinSpec sig gr) (c : Dev nD) (V : Valuation τ sig Val)
  (A : (w : Fin Wn) → Buf Val ((win w).arr.view.loc (c : Thread nD τ)))

theorem withArrays_hF (hinj : Function.Injective (arrRef win)) (w : Fin Wn) :
    A w = withArrays win c V A (Proc.devRef .tc (arrRef win w)) :=
  (withArrays_arr win hinj c V A w).symm

theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

section Held

variable {U : Type} [URA U] {P : Type} [Fintype P]

local notation "𝕄" => MT nD τ sig Unit Val ℕ U ℕ

abbrev idleRest (c : Dev nD) : sProp 𝕄 :=
  iprop((∃ r, prngReg c r) ∗ ∃ S, owes (c : Thread nD τ) (0 : CellTallies nD τ sig Unit) S)

abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

set_option backward.isDefEq.respectTransparency.types false in

def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'

  X c := iprop(∃ r, prngReg c r)
  Y c := iprop(∃ r, prngReg c r)

  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.K.Assemble.lean ====
import proofs.«151264_j87634512708198_1_alg».proof.Proof.K.R0.Frame
import proofs.«151264_j87634512708198_1_alg».proof.Proof.K.R1.Frame
import proofs.«151264_j87634512708198_1_alg».proof.Proof.K.R2.Frame
import proofs.«151264_j87634512708198_1_alg».proof.Proof.Gen.Kernel.Regions
import proofs.«151264_j87634512708198_1_alg».proof.Proof.LibRegionHeld

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev Vof (W : Dev nD → Valuation τ sig (Elt F)) : (c : Dev nD) → (b : Ref sig .tc) → Buf (Elt F) ((c : Thread nD τ).loc b) :=
  fun c b => W c (Proc.devRef .tc b)

abbrev Wv0 : Dev nD → Valuation τ sig (Elt F) := fun c b => m (c, b)

def Wv1 (c : Dev nD) : Valuation τ sig (Elt F) :=
  Pipeline.withArrays spec0 c (Wv0 m c) fun w => (dat0 (Vof (Wv0 m)) c).arrAt w cfg0.N

def Wv2 (c : Dev nD) : Valuation τ sig (Elt F) :=
  Pipeline.withArrays spec1 c (Wv1 m c) fun w => (dat1 (Vof (Wv1 m)) c).arrAt w cfg1.N

def Wv3 (c : Dev nD) : Valuation τ sig (Elt F) :=
  Pipeline.withArrays spec2 c (Wv2 m c) fun w => (dat2 (Vof (Wv2 m)) c).arrAt w cfg2.N

theorem hF0 (c : Dev nD) (w : Fin cfg0.W) :
    (dat0 (Vof (Wv0 m)) c).arrAt w cfg0.N = Wv1 m c (Proc.devRef .tc (Pipeline.arrRef spec0 w)) := by
  unfold Wv1
  exact (Pipeline.withArrays_arr spec0 launch0.win.arr_inj c (Wv0 m c) (fun w => (dat0 (Vof (Wv0 m)) c).arrAt w cfg0.N) w).symm

theorem hrest0 (c : Dev nD) (b : Ref sig .tc) (hb : b ∉ Finset.univ.image (Pipeline.arrRef spec0)) :
    Wv1 m c (Proc.devRef .tc b) = Wv0 m c (Proc.devRef .tc b) := by
  unfold Wv1
  exact Pipeline.withArrays_hrest spec0 c (Wv0 m c) (fun w => (dat0 (Vof (Wv0 m)) c).arrAt w cfg0.N) b hb

theorem hF1 (c : Dev nD) (w : Fin cfg1.W) :
    (dat1 (Vof (Wv1 m)) c).arrAt w cfg1.N = Wv2 m c (Proc.devRef .tc (Pipeline.arrRef spec1 w)) := by
  unfold Wv2
  exact (Pipeline.withArrays_arr spec1 launch1.win.arr_inj c (Wv1 m c) (fun w => (dat1 (Vof (Wv1 m)) c).arrAt w cfg1.N) w).symm

theorem hrest1 (c : Dev nD) (b : Ref sig .tc) (hb : b ∉ Finset.univ.image (Pipeline.arrRef spec1)) :
    Wv2 m c (Proc.devRef .tc b) = Wv1 m c (Proc.devRef .tc b) := by
  unfold Wv2
  exact Pipeline.withArrays_hrest spec1 c (Wv1 m c) (fun w => (dat1 (Vof (Wv1 m)) c).arrAt w cfg1.N) b hb

theorem hF2 (c : Dev nD) (w : Fin cfg2.W) :
    (dat2 (Vof (Wv2 m)) c).arrAt w cfg2.N = Wv3 m c (Proc.devRef .tc (Pipeline.arrRef spec2 w)) := by
  unfold Wv3
  exact (Pipeline.withArrays_arr spec2 launch2.win.arr_inj c (Wv2 m c) (fun w => (dat2 (Vof (Wv2 m)) c).arrAt w cfg2.N) w).symm

theorem hrest2 (c : Dev nD) (b : Ref sig .tc) (hb : b ∉ Finset.univ.image (Pipeline.arrRef spec2)) :
    Wv3 m c (Proc.devRef .tc b) = Wv2 m c (Proc.devRef .tc b) := by
  unfold Wv3
  exact Pipeline.withArrays_hrest spec2 c (Wv2 m c) (fun w => (dat2 (Vof (Wv2 m)) c).arrAt w cfg2.N) b hb

def pdats : (p : Fin 3) → (c : Dev nD) → Dat τ (Elt F) Unit ℕ (UR sig nD τ) ℕ (Pipeline.pin (pcfgs (F := F)) adm p) c
  | ⟨0, _⟩ => fun c => dat0 (Vof (Wv0 m)) c
  | ⟨1, _⟩ => fun c => dat1 (Vof (Wv1 m)) c
  | ⟨2, _⟩ => fun c => dat2 (Vof (Wv2 m)) c

abbrev L : GSem nD τ sig → Finset Unit := fun _ => ∅
abbrev lv : GSem nD τ sig → Unit → ℕ := fun _ _ => 0

set_option backward.isDefEq.respectTransparency.types false in

def reg0 : RegionSeg (pcfgs (F := F)) adm (pdats m) () defs₀ Variants.none L lv 0 :=
  Pipeline.RegionSeg.ofHeld (pcfgs (F := F)) adm (pdats m) defs₀ Variants.none L lv 0
    launch0.win launch0.block_pos launch0.arr_whole launch0.stage_whole
    (fun c => Pipeline.emp_prefHeld_of_no_table _ rfl c _ _)
    (fun c => body_obligation0 (Vof (Wv0 m)) c)
    (fun _ _ => rfl) (fun _ _ => rfl) (fun _ => rfl)
    (Wv0 m) (Wv1 m)
    (fun _ _ => rfl)
    (fun c w => hF0 m c w)
    (fun c b hb => hrest0 m c b hb)
    (fun c => hin0 _ c) (fun c => hout0 _ c)

set_option backward.isDefEq.respectTransparency.types false in

def reg1 : RegionSeg (pcfgs (F := F)) adm (pdats m) () defs₀ Variants.none L lv 1 :=
  Pipeline.RegionSeg.ofHeld (pcfgs (F := F)) adm (pdats m) defs₀ Variants.none L lv 1
    launch1.win launch1.block_pos launch1.arr_whole launch1.stage_whole
    (fun c => Pipeline.emp_prefHeld_of_no_table _ rfl c _ _)
    (fun c => body_obligation1 (Vof (Wv1 m)) c)
    (fun _ _ => rfl) (fun _ _ => rfl) (fun _ => rfl)
    (Wv1 m) (Wv2 m)
    (fun _ _ => rfl)
    (fun c w => hF1 m c w)
    (fun c b hb => hrest1 m c b hb)
    (fun c => hin1 _ c) (fun c => hout1 _ c)

set_option backward.isDefEq.respectTransparency.types false in

def reg2 : RegionSeg (pcfgs (F := F)) adm (pdats m) () defs₀ Variants.none L lv 2 :=
  Pipeline.RegionSeg.ofHeld (pcfgs (F := F)) adm (pdats m) defs₀ Variants.none L lv 2
    launch2.win launch2.block_pos launch2.arr_whole launch2.stage_whole
    (fun c => Pipeline.emp_prefHeld_of_no_table _ rfl c _ _)
    (fun c => body_obligation2 (Vof (Wv2 m)) c)
    (fun _ _ => rfl) (fun _ _ => rfl) (fun _ => rfl)
    (Wv2 m) (Wv3 m)
    (fun _ _ => rfl)
    (fun c w => hF2 m c w)
    (fun c b hb => hrest2 m c b hb)
    (fun c => hin2 _ c) (fun c => hout2 _ c)

set_option backward.isDefEq.respectTransparency.types false in

theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Wv3 m c b) :=
  Pipeline.θ_run_regions_kit (pcfgs (F := F)) adm (pdats m) () cellOf_inj emb₁ defs₀ Variants.none L lv m ρ main
    [.region (reg0 m), .region (reg1 m), .region (reg2 m)]
    (fun c Q => by rw [main_segs adm (pdats m) () Variants.none L lv (reg0 m) (reg1 m) (reg2 m) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Pipeline.heldIdle (Wv0 m)) (Tₙ := fun c => StableHlo.held (c : Thread nD τ) (Pipeline.ucRefs τ sig) (Wv3 m c))
    (hch := ⟨fun c => by show (Pipeline.heldIdle (Wv0 m) c : sProp 𝕄) ⊢ Pipeline.heldIdle (Wv0 m) c; exact .rfl,
      fun c => by show (Pipeline.heldIdle (Wv1 m) c : sProp 𝕄) ⊢ Pipeline.heldIdle (Wv1 m) c; exact .rfl,
      fun c => by show (Pipeline.heldIdle (Wv2 m) c : sProp 𝕄) ⊢ Pipeline.heldIdle (Wv2 m) c; exact .rfl,
      fun c => by
        show (Pipeline.heldIdle (Wv3 m) c : sProp 𝕄) ⊢ _
        iintro ⟨Hh, -, Ho⟩
        isplitl [Hh]; · iexact Hh
        iexact Ho⟩)
    (hinit := by
      refine Pipeline.initEach L lv fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv3 m c b)
    (hfin := fun c s' => by
      iintro ⟨Hh, HSI⟩
      unfold StableHlo.held
      imodintro
      iapply (pointsTo_read_all (Pipeline.ucRefs τ sig) (fun b => (((c : Thread nD τ)).1, b)) (Wv3 m c) s')
      isplitl [Hh] <;> iassumption)
    (hQ := fun _ h => h)

theorem keep0 (c : Dev nD) (b : Ref sig .tc) (hb : b ≠ main_v0) :
    Wv1 m c (Proc.devRef .tc b) = Wv0 m c (Proc.devRef .tc b) := by
  by_cases hmem : b ∈ Finset.univ.image (Pipeline.arrRef spec0)
  · obtain ⟨w, -, rfl⟩ := Finset.mem_image.mp hmem
    unfold Wv1
    rw [Pipeline.withArrays_arr spec0 launch0.win.arr_inj c _ _ w]
    fin_cases w <;> first | exact absurd rfl hb | exact (dat0 (Vof (Wv0 m)) c).arrAt_in _ rfl _
  · exact Pipeline.withArrays_hrest spec0 c (Wv0 m c) _ b hmem

theorem out0 (c : Dev nD) :
    Wv1 m c (Proc.devRef .tc main_v0) = (dat0 (Vof (Wv0 m)) c).arrAt 6 cfg0.N := by
  unfold Wv1
  exact Pipeline.withArrays_arr spec0 launch0.win.arr_inj c _ _ 6

theorem keep1 (c : Dev nD) (b : Ref sig .tc) (hb : b ≠ main_v1) :
    Wv2 m c (Proc.devRef .tc b) = Wv1 m c (Proc.devRef .tc b) := by
  by_cases hmem : b ∈ Finset.univ.image (Pipeline.arrRef spec1)
  · obtain ⟨w, -, rfl⟩ := Finset.mem_image.mp hmem
    unfold Wv2
    rw [Pipeline.withArrays_arr spec1 launch1.win.arr_inj c _ _ w]
    fin_cases w <;> first | exact absurd rfl hb | exact (dat1 (Vof (Wv1 m)) c).arrAt_in _ rfl _
  · exact Pipeline.withArrays_hrest spec1 c (Wv1 m c) _ b hmem

theorem out1 (c : Dev nD) :
    Wv2 m c (Proc.devRef .tc main_v1) = (dat1 (Vof (Wv1 m)) c).arrAt 6 cfg1.N := by
  unfold Wv2
  exact Pipeline.withArrays_arr spec1 launch1.win.arr_inj c _ _ 6

theorem keep2 (c : Dev nD) (b : Ref sig .tc) (hb : b ≠ main_v2) :
    Wv3 m c (Proc.devRef .tc b) = Wv2 m c (Proc.devRef .tc b) := by
  by_cases hmem : b ∈ Finset.univ.image (Pipeline.arrRef spec2)
  · obtain ⟨w, -, rfl⟩ := Finset.mem_image.mp hmem
    unfold Wv3
    rw [Pipeline.withArrays_arr spec2 launch2.win.arr_inj c _ _ w]
    fin_cases w <;> first | exact absurd rfl hb | exact (dat2 (Vof (Wv2 m)) c).arrAt_in _ rfl _
  · exact Pipeline.withArrays_hrest spec2 c (Wv2 m c) _ b hmem

theorem out2 (c : Dev nD) :
    Wv3 m c (Proc.devRef .tc main_v2) = (dat2 (Vof (Wv2 m)) c).arrAt 6 cfg2.N := by
  unfold Wv3
  exact Pipeline.withArrays_arr spec2 launch2.win.arr_inj c _ _ 6

theorem kept (c : Dev nD) (b : Ref sig .tc) (h0 : b ≠ main_v0) (h1 : b ≠ main_v1) (h2 : b ≠ main_v2) :
    Wv3 m c (Proc.devRef .tc b) = m ((c : Thread nD τ).loc b) :=
  (keep2 m c b h2).trans ((keep1 m c b h1).trans (keep0 m c b h0))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem ends (ρ : Dev nD → PrngReg) :
    θ_run defs (onTc (τ := τ) (main (F := F))) ⟨m, fun _ => 0, ρ⟩ (fun r => ∀ (c : Dev nD) (b : Ref sig .tc),
      ¬(Proc.devRef .tc b : DevRef τ sig).isScoped → r.2.mem ((c.tc : Thread nD τ).loc b) = Wv3 m c (Proc.devRef .tc b)) :=
  (θ_run defs _ _).mono (fun _ h c b hs => h c _ (mem_uc b hs)) (run_all m ρ)

end Cert.Kernel.Hand

end
-- ==== Proof.KI.Body.lean ====
import proofs.«151264_j87634512708198_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zOne : (![0] : Fin 1 → Nat) = fun _ => 0 := funext fun a => by fin_cases a <;> rfl
theorem zTwo : (![0, 0] : Fin 2 → Nat) = fun _ => 0 := funext fun a => by fin_cases a <;> rfl
theorem zThree : (![0, 0, 0] : Fin 3 → Nat) = fun _ => 0 := funext fun a => by fin_cases a <;> rfl

theorem cc1_eq : @cc1__gcn_layer_kernel F _ _ = @cc0__gcn_layer_kernel F _ _ := rfl
theorem cc2_eq : @cc2__gcn_layer_kernel F _ _ = @cc0__gcn_layer_kernel F _ _ := rfl

abbrev condR (i : grid0.Coords) : Prop := (Scalar.cmpi .ne (Scalar.extui (Scalar.cmpi .eq (BitVec.ofNat 32 (i 2).val) 0#32)) 0#32) = 1#1
abbrev condN (i : grid0.Coords) : Prop := k0_cond2 i = 1#1

variable (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S1x1024x128 .f32) (harg9 : arg9.IsWhole) (arg10 : Memref sig .tc .vmem S1024x128 .f32) (harg10 : arg10.IsWhole)
  (x0 : Vec F S1x1024x1024 .f32) (x1 : Vec F S1x1024x128 .f32) (x2 : Vec F S128x128 .f32) (x3 x4 x5 : Vec F S128 .f32)

variable {D0 D1 D2 D3 D4 D5 D6 : Type} (b6 : D6 → Vec F S1x1024x128 .f32)

set_option maxHeartbeats 2000000 in
/-- Where the reduction starts the body leaves the accumulator at zero plus the block product, whatever it held. -/
theorem body_reset (hc0 : condR i) (hc1 : ¬condN i) (E : Set ℕ) (K : PUnit → sProp 𝕄) :
    iprop((∃ d, owns (c : Thread nD τ) arg10 fullShare d) ∗ ((∃ _ : D0, owns (c : Thread nD τ) arg3 fullShare x0) ∗ (∃ _ : D1, owns (c : Thread nD τ) arg4 fullShare x1) ∗ (∃ _ : D2, owns (c : Thread nD τ) arg5 fullShare x2) ∗ (∃ _ : D3, owns (c : Thread nD τ) arg6 fullShare x3) ∗ (∃ _ : D4, owns (c : Thread nD τ) arg7 fullShare x4) ∗ (∃ _ : D5, owns (c : Thread nD τ) arg8 fullShare x5) ∗ (∃ d, owns (c : Thread nD τ) arg9 fullShare (b6 d)))
        ∗ (iprop(owns (c : Thread nD τ) arg10 fullShare (k0_pay2 x0 x1 k0_pay1) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare (b6 d))) -∗ K ⟨⟩))
      ⊢ wp frame (wpE (defs₀ (F := F)) Variants.none c none) E (cc0__gcn_layer_kernel i arg3 harg3 arg4 harg4 arg5 harg5 arg6 harg6 arg7 harg7 arg8 harg8 arg9 harg9 arg10 harg10) K := by
  simp only [cc0__gcn_layer_kernel_eq_skeleton]; unfold cc0__gcn_layer_kernel_skel
  unfold owns
  iintro ⟨⟨%ds0, %fs0, -, HS0⟩, ⟨⟨%e0, %f0, %hf0, H0⟩, ⟨%e1, %f1, %hf1, H1⟩, ⟨%e2, %f2, %hf2, H2⟩, ⟨%e3, %f3, %hf3, H3⟩, ⟨%e4, %f4, %hf4, H4⟩, ⟨%e5, %f5, %hf5, H5⟩, ⟨%d6, %f6, %hf6, H6⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | exact hc0 | exact hc1)
  sl_step
  iapply Hk
  isplitl [HS0]
  · iexists _; isplitr
    swap; · iexact HS0
    ipureintro
    rw [View.read_writes_eq_canon _ _ _ (View.cover_of_tiledL _ S1024x128.size (by sl_kernel_rfl))]
    sl_unfold_words
    rw [View.canon_cons_unit_zero (S := S1024x128) zTwo, View.readCov_unit_zero (S := S1024x128) _ zTwo]
    simp only [View.readAt_eq_ld, harg3.read_unread, harg4.read_unread, View.ld_unit_zero (S := S1x1024x1024) zThree,
      View.ld_unit_zero (S := S1x1024x128) zThree]
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists d6; iexists _; isplitr; · ipureintro; exact harg9.read_unread _
  iexact H6

set_option maxHeartbeats 2000000 in
/-- Where it ends the body adds the block product to what the accumulator held and stores the normalised rows. -/
theorem body_norm (hc0 : ¬condR i) (hc1 : condN i) (xs : Vec F S1024x128 .f32) (E : Set ℕ) (K : PUnit → sProp 𝕄) :
    iprop(owns (c : Thread nD τ) arg10 fullShare xs ∗ ((∃ _ : D0, owns (c : Thread nD τ) arg3 fullShare x0) ∗ (∃ _ : D1, owns (c : Thread nD τ) arg4 fullShare x1) ∗ (∃ _ : D2, owns (c : Thread nD τ) arg5 fullShare x2) ∗ (∃ _ : D3, owns (c : Thread nD τ) arg6 fullShare x3) ∗ (∃ _ : D4, owns (c : Thread nD τ) arg7 fullShare x4) ∗ (∃ _ : D5, owns (c : Thread nD τ) arg8 fullShare x5) ∗ (∃ d, owns (c : Thread nD τ) arg9 fullShare (b6 d)))
        ∗ (iprop(owns (c : Thread nD τ) arg10 fullShare (k0_pay2 x0 x1 xs) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay3 (k0_pay2 x0 x1 xs) x2 x3 x4 x5)) -∗ K ⟨⟩))
      ⊢ wp frame (wpE (defs₀ (F := F)) Variants.none c none) E (cc0__gcn_layer_kernel i arg3 harg3 arg4 harg4 arg5 harg5 arg6 harg6 arg7 harg7 arg8 harg8 arg9 harg9 arg10 harg10) K := by
  simp only [cc0__gcn_layer_kernel_eq_skeleton]; unfold cc0__gcn_layer_kernel_skel
  unfold owns
  iintro ⟨⟨%fs0, %hfs0, HS0⟩, ⟨⟨%e0, %f0, %hf0, H0⟩, ⟨%e1, %f1, %hf1, H1⟩, ⟨%e2, %f2, %hf2, H2⟩, ⟨%e3, %f3, %hf3, H3⟩, ⟨%e4, %f4, %hf4, H4⟩, ⟨%e5, %f5, %hf5, H5⟩, ⟨%d6, %f6, -, H6⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
  sl_exec (disch := first | exact hc0 | exact hc1)
  sl_step
  iapply Hk
  isplitl [HS0]
  · iexists _; isplitr
    swap; · iexact HS0
    ipureintro
    rw [View.read_writes_eq_canon _ _ _ (View.cover_of_tiledL _ S1024x128.size (by sl_kernel_rfl))]
    sl_unfold_words
    rw [View.canon_unit_zero (S := S1024x128) zTwo]
    simp only [View.readAt_eq_ld, harg3.read_unread, harg4.read_unread, harg10.read_unread, View.ld_unit_zero (S := S1x1024x1024) zThree,
      View.ld_unit_zero (S := S1x1024x128) zThree, View.ld_unit_zero (S := S1024x128) zTwo]
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact H6
  ipureintro
  rw [View.read_writes_eq_canon _ _ _ (View.cover_of_tiledL _ S1x1024x128.size (by sl_kernel_rfl))]
  sl_unfold_words
  rw [View.canon_unit_zero (S := S1x1024x128) zThree, View.readCov_unit_zero (S := S1024x128) _ zTwo]
  simp only [View.readAt_eq_ld, harg3.read_unread, harg4.read_unread, harg5.read_unread, harg6.read_unread, harg7.read_unread,
    harg8.read_unread, harg10.read_unread, View.ld_unit_zero (S := S1x1024x1024) zThree, View.ld_unit_zero (S := S1x1024x128) zThree,
    View.ld_unit_zero (S := S1024x128) zTwo, View.ld_unit_zero (S := S128x128) zTwo, View.ld_unit_zero (S := S128) zOne]

end Cert.KernelIdeal.Hand

end
-- ==== Proof.KI.R0.Frame.lean ====
import proofs.«151264_j87634512708198_1_alg».proof.Proof.KI.Body
import proofs.«151264_j87634512708198_1_alg».proof.Proof.Gen.KernelIdeal.Launch
import proofs.«151264_j87634512708198_1_alg».proof.Proof.Gen.KernelIdeal.Points
import Idealize.ShloMosaic.Lib.Pipeline.RegionsLoop
import Idealize.ShloMosaic.Lib.Pipeline.FrameSuffix

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hcond0_R : ∀ t : Fin cfg0.N, condR (grid0.coords t) ↔ t.val % 2 = 0 :=
  (by decide +kernel : ∀ t : Fin grid0.N, condR (grid0.coords t) ↔ t.val % 2 = 0)
theorem hcond0_N : ∀ t : Fin cfg0.N, condN (grid0.coords t) ↔ t.val % 2 = 1 :=
  (by decide +kernel : ∀ t : Fin grid0.N, condN (grid0.coords t) ↔ t.val % 2 = 1)

theorem idleAt0_6 : ∀ t : Fin cfg0.N, t.val % 2 = 0 → cfg0.idle 6 (grid0.coords t) = true := by decide +kernel
theorem noFlush0_6 : ∀ t : Fin cfg0.N, t.val % 2 = 0 → (cfg0.win 6).flush t = false := by decide +kernel
theorem liveAt0_6 : ∀ t : Fin cfg0.N, ¬t.val % 2 = 0 → cfg0.idle 6 (grid0.coords t) = false := by decide +kernel

abbrev scM0 : Memref sig .tc .vmem S1024x128 .f32 := Memref.whole cc0_scratch0

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole, bigSepL]; try rfl

theorem even0 (t : Fin cfg0.N) (h0 : t.val % 2 = 0) : condR (grid0.coords t) ∧ ¬condN (grid0.coords t) :=
  ⟨(hcond0_R t).mpr h0, fun h => by have := (hcond0_N t).mp h; omega⟩
theorem odd0 (t : Fin cfg0.N) (h0 : ¬t.val % 2 = 0) : ¬condR (grid0.coords t) ∧ condN (grid0.coords t) :=
  ⟨fun h => h0 ((hcond0_R t).mp h), (hcond0_N t).mpr (by omega)⟩

/-- The accumulator after position `n`: its block product added onto zero at an even position, onto the one before's otherwise. -/
def acc0 (c : Dev nD) (n : ℕ) (hn : n < cfg0.N) : Vec F S1024x128 .f32 :=
  k0_pay2 (iblk0 V c 0 ⟨n, hn⟩) (iblk0 V c 1 ⟨n, hn⟩)
    (if n % 2 = 0 then k0_pay1 else k0_pay2 (iblk0 V c 0 ⟨n - 1, by omega⟩) (iblk0 V c 1 ⟨n - 1, by omega⟩) k0_pay1)

/-- The output block a position stores: the accumulator's rows normalised. -/
def res0 (c : Dev nD) (t : Fin cfg0.N) : Vec F S1x1024x128 .f32 :=
  k0_pay3 (acc0 V c t.val t.isLt) (iblk0 V c 2 t) (iblk0 V c 3 t) (iblk0 V c 4 t) (iblk0 V c 5 t)

theorem acc0_even (c : Dev nD) (n : ℕ) (hn : n < cfg0.N) (h0 : n % 2 = 0) :
    acc0 V c n hn = k0_pay2 (iblk0 V c 0 ⟨n, hn⟩) (iblk0 V c 1 ⟨n, hn⟩) k0_pay1 := by
  unfold acc0; rw [if_pos h0]

theorem acc0_odd (c : Dev nD) (n : ℕ) (hn : n < cfg0.N) (h0 : ¬n % 2 = 0) :
    acc0 V c n hn = k0_pay2 (iblk0 V c 0 ⟨n, hn⟩) (iblk0 V c 1 ⟨n, hn⟩) (acc0 V c (n - 1) (by omega)) := by
  unfold acc0; rw [if_neg h0, if_pos (by omega)]

abbrev prev0 (t : Fin cfg0.N) : Fin cfg0.N := ⟨t.val - 1, Nat.lt_of_le_of_lt (Nat.sub_le _ _) t.isLt⟩

theorem res0_odd (c : Dev nD) (t : Fin cfg0.N) (h0 : ¬t.val % 2 = 0) :
    res0 V c t = k0_pay3 (k0_pay2 (iblk0 V c 0 t) (iblk0 V c 1 t) (k0_pay2 (iblk0 V c 0 (prev0 t)) (iblk0 V c 1 (prev0 t)) k0_pay1))
      (iblk0 V c 2 t) (iblk0 V c 3 t) (iblk0 V c 4 t) (iblk0 V c 5 t) := by
  unfold res0; rw [acc0_odd V c t.val t.isLt h0, acc0_even V c (t.val - 1) _ (by omega)]

def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => res0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_6 (c : Dev nD) (t : Fin cfg0.N) : (dat0 V c).after 6 t = res0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem leaves0_in (c : Dev nD) (t : Fin cfg0.N) :
    (dat0 V c).leavesExact 0 t = owns (c : Thread nD τ) (st0_0 t) fullShare (iblk0 V c 0 t) ∧
    (dat0 V c).leavesExact 1 t = owns (c : Thread nD τ) (st0_1 t) fullShare (iblk0 V c 1 t) ∧
    (dat0 V c).leavesExact 2 t = owns (c : Thread nD τ) (st0_2 t) fullShare (iblk0 V c 2 t) ∧
    (dat0 V c).leavesExact 3 t = owns (c : Thread nD τ) (st0_3 t) fullShare (iblk0 V c 3 t) ∧
    (dat0 V c).leavesExact 4 t = owns (c : Thread nD τ) (st0_4 t) fullShare (iblk0 V c 4 t) ∧
    (dat0 V c).leavesExact 5 t = owns (c : Thread nD τ) (st0_5 t) fullShare (iblk0 V c 5 t) :=
  ⟨rfl, rfl, rfl, rfl, rfl, rfl⟩

set_option maxHeartbeats 4800000 in
/-- The invariant hands the body the accumulator (at anything at an even position) and takes it back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [show bodyAt0 (F := F) t = cc0__gcn_layer_kernel (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM0 (Memref.isWhole_whole _) from rfl]
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  obtain ⟨e0, e1, e2, e3, e4, e5⟩ := leaves0_in V c t
  rw [e0, e1, e2, e3, e4, e5]
  by_cases h0 : t.val % 2 = 0
  · rw [Dat.leavesExact_idle (dat0 V c) 6 t (idleAt0_6 t h0) (noFlush0_6 t h0), acc0_even V c t.val t.isLt h0]
    have hΦ : (dat0 V c).Φ t.castSucc ⊢ iprop(iprop((∃ d, owns (c : Thread nD τ) scM0 fullShare d) ∗ others0 c) ∗ (∃ r, prngReg c r)) := by
      by_cases hz : t.val = 0
      · rw [PhiS0_castSucc V c t, PhiS0_zero V c _ _ hz, PhiA0_eq]
      · rw [PhiS0_castSucc V c t, PhiS0_pos V c _ _ hz]
        iintro ⟨⟨HS, Hot⟩, Hg⟩
        isplitl [HS Hot]
        · isplitl [HS]
          · iexists _; iexact HS
          iexact Hot
        iexact Hg
    iintro ⟨HΦ, Ho, HW⟩
    ihave HΦ' := hΦ $$ HΦ
    icases HΦ' with ⟨⟨HS, Hot⟩, Hg⟩
    iapply (body_reset c (grid0.coords t) _ _ _ _ _ _ _ _ _ _ _ _ _ _ _ _ (iblk0 V c 0 t) (iblk0 V c 1 t) (iblk0 V c 2 t) (iblk0 V c 3 t) (iblk0 V c 4 t) (iblk0 V c 5 t) (fun d => (dat0 V c).before 6 t d) (even0 t h0).1 (even0 t h0).2 Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW
  · rw [show (dat0 V c).leavesExact 6 t = owns (c : Thread nD τ) (st0_6 t) fullShare ((dat0 V c).after 6 t) from by
      unfold Dat.leavesExact; rw [liveAt0_6 t h0], after0_6]
    have hz : t.val ≠ 0 := fun hz => h0 (by rw [hz])
    unfold res0
    rw [acc0_odd V c t.val t.isLt h0, PhiS0_castSucc V c t, PhiS0_pos V c _ _ hz]
    iintro ⟨⟨⟨HS, Hot⟩, Hg⟩, Ho, HW⟩
    iapply (body_norm c (grid0.coords t) _ _ _ _ _ _ _ _ _ _ _ _ _ _ _ _ (iblk0 V c 0 t) (iblk0 V c 1 t) (iblk0 V c 2 t) (iblk0 V c 3 t) (iblk0 V c 4 t) (iblk0 V c 5 t) (fun d => (dat0 V c).before 6 t d) (odd0 t h0).1 (odd0 t h0).2 _ Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have hN : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS, Hot⟩, Hg⟩
  isplitl [HS Hot]
  · isplitl [HS]
    · iexists _; iexact HS
    iexact Hot
  iexact Hg

end Cert.KernelIdeal.Hand

end
-- ==== Proof.KI.R1.Frame.lean ====
import proofs.«151264_j87634512708198_1_alg».proof.Proof.KI.Body
import proofs.«151264_j87634512708198_1_alg».proof.Proof.Gen.KernelIdeal.Launch
import proofs.«151264_j87634512708198_1_alg».proof.Proof.Gen.KernelIdeal.Points
import Idealize.ShloMosaic.Lib.Pipeline.RegionsLoop
import Idealize.ShloMosaic.Lib.Pipeline.FrameSuffix

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hcond1_R : ∀ t : Fin cfg1.N, condR (grid1.coords t) ↔ t.val % 2 = 0 :=
  (by decide +kernel : ∀ t : Fin grid1.N, condR (grid1.coords t) ↔ t.val % 2 = 0)
theorem hcond1_N : ∀ t : Fin cfg1.N, condN (grid1.coords t) ↔ t.val % 2 = 1 :=
  (by decide +kernel : ∀ t : Fin grid1.N, condN (grid1.coords t) ↔ t.val % 2 = 1)

theorem idleAt1_6 : ∀ t : Fin cfg1.N, t.val % 2 = 0 → cfg1.idle 6 (grid1.coords t) = true := by decide +kernel
theorem noFlush1_6 : ∀ t : Fin cfg1.N, t.val % 2 = 0 → (cfg1.win 6).flush t = false := by decide +kernel
theorem liveAt1_6 : ∀ t : Fin cfg1.N, ¬t.val % 2 = 0 → cfg1.idle 6 (grid1.coords t) = false := by decide +kernel

abbrev scM1 : Memref sig .tc .vmem S1024x128 .f32 := Memref.whole cc1_scratch0

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole, bigSepL]; try rfl

theorem even1 (t : Fin cfg1.N) (h0 : t.val % 2 = 0) : condR (grid1.coords t) ∧ ¬condN (grid1.coords t) :=
  ⟨(hcond1_R t).mpr h0, fun h => by have := (hcond1_N t).mp h; omega⟩
theorem odd1 (t : Fin cfg1.N) (h0 : ¬t.val % 2 = 0) : ¬condR (grid1.coords t) ∧ condN (grid1.coords t) :=
  ⟨fun h => h0 ((hcond1_R t).mp h), (hcond1_N t).mpr (by omega)⟩

/-- The accumulator after position `n`: its block product added onto zero at an even position, onto the one before's otherwise. -/
def acc1 (c : Dev nD) (n : ℕ) (hn : n < cfg1.N) : Vec F S1024x128 .f32 :=
  k0_pay2 (iblk1 V c 0 ⟨n, hn⟩) (iblk1 V c 1 ⟨n, hn⟩)
    (if n % 2 = 0 then k0_pay1 else k0_pay2 (iblk1 V c 0 ⟨n - 1, by omega⟩) (iblk1 V c 1 ⟨n - 1, by omega⟩) k0_pay1)

/-- The output block a position stores: the accumulator's rows normalised. -/
def res1 (c : Dev nD) (t : Fin cfg1.N) : Vec F S1x1024x128 .f32 :=
  k0_pay3 (acc1 V c t.val t.isLt) (iblk1 V c 2 t) (iblk1 V c 3 t) (iblk1 V c 4 t) (iblk1 V c 5 t)

theorem acc1_even (c : Dev nD) (n : ℕ) (hn : n < cfg1.N) (h0 : n % 2 = 0) :
    acc1 V c n hn = k0_pay2 (iblk1 V c 0 ⟨n, hn⟩) (iblk1 V c 1 ⟨n, hn⟩) k0_pay1 := by
  unfold acc1; rw [if_pos h0]

theorem acc1_odd (c : Dev nD) (n : ℕ) (hn : n < cfg1.N) (h0 : ¬n % 2 = 0) :
    acc1 V c n hn = k0_pay2 (iblk1 V c 0 ⟨n, hn⟩) (iblk1 V c 1 ⟨n, hn⟩) (acc1 V c (n - 1) (by omega)) := by
  unfold acc1; rw [if_neg h0, if_pos (by omega)]

abbrev prev1 (t : Fin cfg1.N) : Fin cfg1.N := ⟨t.val - 1, Nat.lt_of_le_of_lt (Nat.sub_le _ _) t.isLt⟩

theorem res1_odd (c : Dev nD) (t : Fin cfg1.N) (h0 : ¬t.val % 2 = 0) :
    res1 V c t = k0_pay3 (k0_pay2 (iblk1 V c 0 t) (iblk1 V c 1 t) (k0_pay2 (iblk1 V c 0 (prev1 t)) (iblk1 V c 1 (prev1 t)) k0_pay1))
      (iblk1 V c 2 t) (iblk1 V c 3 t) (iblk1 V c 4 t) (iblk1 V c 5 t) := by
  unfold res1; rw [acc1_odd V c t.val t.isLt h0, acc1_even V c (t.val - 1) _ (by omega)]

def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => res1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_6 (c : Dev nD) (t : Fin cfg1.N) : (dat1 V c).after 6 t = res1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_in (c : Dev nD) (t : Fin cfg1.N) :
    (dat1 V c).leavesExact 0 t = owns (c : Thread nD τ) (st1_0 t) fullShare (iblk1 V c 0 t) ∧
    (dat1 V c).leavesExact 1 t = owns (c : Thread nD τ) (st1_1 t) fullShare (iblk1 V c 1 t) ∧
    (dat1 V c).leavesExact 2 t = owns (c : Thread nD τ) (st1_2 t) fullShare (iblk1 V c 2 t) ∧
    (dat1 V c).leavesExact 3 t = owns (c : Thread nD τ) (st1_3 t) fullShare (iblk1 V c 3 t) ∧
    (dat1 V c).leavesExact 4 t = owns (c : Thread nD τ) (st1_4 t) fullShare (iblk1 V c 4 t) ∧
    (dat1 V c).leavesExact 5 t = owns (c : Thread nD τ) (st1_5 t) fullShare (iblk1 V c 5 t) :=
  ⟨rfl, rfl, rfl, rfl, rfl, rfl⟩

set_option maxHeartbeats 4800000 in
/-- The invariant hands the body the accumulator (at anything at an even position) and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [show bodyAt1 (F := F) t = cc0__gcn_layer_kernel (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) scM1 (Memref.isWhole_whole _) from rfl]
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  obtain ⟨e0, e1, e2, e3, e4, e5⟩ := leaves1_in V c t
  rw [e0, e1, e2, e3, e4, e5]
  by_cases h0 : t.val % 2 = 0
  · rw [Dat.leavesExact_idle (dat1 V c) 6 t (idleAt1_6 t h0) (noFlush1_6 t h0), acc1_even V c t.val t.isLt h0]
    have hΦ : (dat1 V c).Φ t.castSucc ⊢ iprop(iprop((∃ d, owns (c : Thread nD τ) scM1 fullShare d) ∗ others1 c) ∗ (∃ r, prngReg c r)) := by
      by_cases hz : t.val = 0
      · rw [PhiS1_castSucc V c t, PhiS1_zero V c _ _ hz, PhiA1_eq]
      · rw [PhiS1_castSucc V c t, PhiS1_pos V c _ _ hz]
        iintro ⟨⟨HS, Hot⟩, Hg⟩
        isplitl [HS Hot]
        · isplitl [HS]
          · iexists _; iexact HS
          iexact Hot
        iexact Hg
    iintro ⟨HΦ, Ho, HW⟩
    ihave HΦ' := hΦ $$ HΦ
    icases HΦ' with ⟨⟨HS, Hot⟩, Hg⟩
    iapply (body_reset c (grid1.coords t) _ _ _ _ _ _ _ _ _ _ _ _ _ _ _ _ (iblk1 V c 0 t) (iblk1 V c 1 t) (iblk1 V c 2 t) (iblk1 V c 3 t) (iblk1 V c 4 t) (iblk1 V c 5 t) (fun d => (dat1 V c).before 6 t d) (even1 t h0).1 (even1 t h0).2 Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW
  · rw [show (dat1 V c).leavesExact 6 t = owns (c : Thread nD τ) (st1_6 t) fullShare ((dat1 V c).after 6 t) from by
      unfold Dat.leavesExact; rw [liveAt1_6 t h0], after1_6]
    have hz : t.val ≠ 0 := fun hz => h0 (by rw [hz])
    unfold res1
    rw [acc1_odd V c t.val t.isLt h0, PhiS1_castSucc V c t, PhiS1_pos V c _ _ hz]
    iintro ⟨⟨⟨HS, Hot⟩, Hg⟩, Ho, HW⟩
    iapply (body_norm c (grid1.coords t) _ _ _ _ _ _ _ _ _ _ _ _ _ _ _ _ (iblk1 V c 0 t) (iblk1 V c 1 t) (iblk1 V c 2 t) (iblk1 V c 3 t) (iblk1 V c 4 t) (iblk1 V c 5 t) (fun d => (dat1 V c).before 6 t d) (odd1 t h0).1 (odd1 t h0).2 _ Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hN : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨⟨HS, Hot⟩, Hg⟩
  isplitl [HS Hot]
  · isplitl [HS]
    · iexists _; iexact HS
    iexact Hot
  iexact Hg

end Cert.KernelIdeal.Hand

end
-- ==== Proof.KI.R2.Frame.lean ====
import proofs.«151264_j87634512708198_1_alg».proof.Proof.KI.Body
import proofs.«151264_j87634512708198_1_alg».proof.Proof.Gen.KernelIdeal.Launch
import proofs.«151264_j87634512708198_1_alg».proof.Proof.Gen.KernelIdeal.Points
import Idealize.ShloMosaic.Lib.Pipeline.RegionsLoop
import Idealize.ShloMosaic.Lib.Pipeline.FrameSuffix

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hcond2_R : ∀ t : Fin cfg2.N, condR (grid2.coords t) ↔ t.val % 2 = 0 :=
  (by decide +kernel : ∀ t : Fin grid2.N, condR (grid2.coords t) ↔ t.val % 2 = 0)
theorem hcond2_N : ∀ t : Fin cfg2.N, condN (grid2.coords t) ↔ t.val % 2 = 1 :=
  (by decide +kernel : ∀ t : Fin grid2.N, condN (grid2.coords t) ↔ t.val % 2 = 1)

theorem idleAt2_6 : ∀ t : Fin cfg2.N, t.val % 2 = 0 → cfg2.idle 6 (grid2.coords t) = true := by decide +kernel
theorem noFlush2_6 : ∀ t : Fin cfg2.N, t.val % 2 = 0 → (cfg2.win 6).flush t = false := by decide +kernel
theorem liveAt2_6 : ∀ t : Fin cfg2.N, ¬t.val % 2 = 0 → cfg2.idle 6 (grid2.coords t) = false := by decide +kernel

abbrev scM2 : Memref sig .tc .vmem S1024x128 .f32 := Memref.whole cc2_scratch0

abbrev others2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [scM2, owns_whole, bigSepL]; try rfl

theorem even2 (t : Fin cfg2.N) (h0 : t.val % 2 = 0) : condR (grid2.coords t) ∧ ¬condN (grid2.coords t) :=
  ⟨(hcond2_R t).mpr h0, fun h => by have := (hcond2_N t).mp h; omega⟩
theorem odd2 (t : Fin cfg2.N) (h0 : ¬t.val % 2 = 0) : ¬condR (grid2.coords t) ∧ condN (grid2.coords t) :=
  ⟨fun h => h0 ((hcond2_R t).mp h), (hcond2_N t).mpr (by omega)⟩

/-- The accumulator after position `n`: its block product added onto zero at an even position, onto the one before's otherwise. -/
def acc2 (c : Dev nD) (n : ℕ) (hn : n < cfg2.N) : Vec F S1024x128 .f32 :=
  k0_pay2 (iblk2 V c 0 ⟨n, hn⟩) (iblk2 V c 1 ⟨n, hn⟩)
    (if n % 2 = 0 then k0_pay1 else k0_pay2 (iblk2 V c 0 ⟨n - 1, by omega⟩) (iblk2 V c 1 ⟨n - 1, by omega⟩) k0_pay1)

/-- The output block a position stores: the accumulator's rows normalised. -/
def res2 (c : Dev nD) (t : Fin cfg2.N) : Vec F S1x1024x128 .f32 :=
  k0_pay3 (acc2 V c t.val t.isLt) (iblk2 V c 2 t) (iblk2 V c 3 t) (iblk2 V c 4 t) (iblk2 V c 5 t)

theorem acc2_even (c : Dev nD) (n : ℕ) (hn : n < cfg2.N) (h0 : n % 2 = 0) :
    acc2 V c n hn = k0_pay2 (iblk2 V c 0 ⟨n, hn⟩) (iblk2 V c 1 ⟨n, hn⟩) k0_pay1 := by
  unfold acc2; rw [if_pos h0]

theorem acc2_odd (c : Dev nD) (n : ℕ) (hn : n < cfg2.N) (h0 : ¬n % 2 = 0) :
    acc2 V c n hn = k0_pay2 (iblk2 V c 0 ⟨n, hn⟩) (iblk2 V c 1 ⟨n, hn⟩) (acc2 V c (n - 1) (by omega)) := by
  unfold acc2; rw [if_neg h0, if_pos (by omega)]

abbrev prev2 (t : Fin cfg2.N) : Fin cfg2.N := ⟨t.val - 1, Nat.lt_of_le_of_lt (Nat.sub_le _ _) t.isLt⟩

theorem res2_odd (c : Dev nD) (t : Fin cfg2.N) (h0 : ¬t.val % 2 = 0) :
    res2 V c t = k0_pay3 (k0_pay2 (iblk2 V c 0 t) (iblk2 V c 1 t) (k0_pay2 (iblk2 V c 0 (prev2 t)) (iblk2 V c 1 (prev2 t)) k0_pay1))
      (iblk2 V c 2 t) (iblk2 V c 3 t) (iblk2 V c 4 t) (iblk2 V c 5 t) := by
  unfold res2; rw [acc2_odd V c t.val t.isLt h0, acc2_even V c (t.val - 1) _ (by omega)]

def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ others2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => res2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_6 (c : Dev nD) (t : Fin cfg2.N) : (dat2 V c).after 6 t = res2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem leaves2_in (c : Dev nD) (t : Fin cfg2.N) :
    (dat2 V c).leavesExact 0 t = owns (c : Thread nD τ) (st2_0 t) fullShare (iblk2 V c 0 t) ∧
    (dat2 V c).leavesExact 1 t = owns (c : Thread nD τ) (st2_1 t) fullShare (iblk2 V c 1 t) ∧
    (dat2 V c).leavesExact 2 t = owns (c : Thread nD τ) (st2_2 t) fullShare (iblk2 V c 2 t) ∧
    (dat2 V c).leavesExact 3 t = owns (c : Thread nD τ) (st2_3 t) fullShare (iblk2 V c 3 t) ∧
    (dat2 V c).leavesExact 4 t = owns (c : Thread nD τ) (st2_4 t) fullShare (iblk2 V c 4 t) ∧
    (dat2 V c).leavesExact 5 t = owns (c : Thread nD τ) (st2_5 t) fullShare (iblk2 V c 5 t) :=
  ⟨rfl, rfl, rfl, rfl, rfl, rfl⟩

set_option maxHeartbeats 4800000 in
/-- The invariant hands the body the accumulator (at anything at an even position) and takes it back at this position's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [show bodyAt2 (F := F) t = cc0__gcn_layer_kernel (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) scM2 (Memref.isWhole_whole _) from rfl]
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  obtain ⟨e0, e1, e2, e3, e4, e5⟩ := leaves2_in V c t
  rw [e0, e1, e2, e3, e4, e5]
  by_cases h0 : t.val % 2 = 0
  · rw [Dat.leavesExact_idle (dat2 V c) 6 t (idleAt2_6 t h0) (noFlush2_6 t h0), acc2_even V c t.val t.isLt h0]
    have hΦ : (dat2 V c).Φ t.castSucc ⊢ iprop(iprop((∃ d, owns (c : Thread nD τ) scM2 fullShare d) ∗ others2 c) ∗ (∃ r, prngReg c r)) := by
      by_cases hz : t.val = 0
      · rw [PhiS2_castSucc V c t, PhiS2_zero V c _ _ hz, PhiA2_eq]
      · rw [PhiS2_castSucc V c t, PhiS2_pos V c _ _ hz]
        iintro ⟨⟨HS, Hot⟩, Hg⟩
        isplitl [HS Hot]
        · isplitl [HS]
          · iexists _; iexact HS
          iexact Hot
        iexact Hg
    iintro ⟨HΦ, Ho, HW⟩
    ihave HΦ' := hΦ $$ HΦ
    icases HΦ' with ⟨⟨HS, Hot⟩, Hg⟩
    iapply (body_reset c (grid2.coords t) _ _ _ _ _ _ _ _ _ _ _ _ _ _ _ _ (iblk2 V c 0 t) (iblk2 V c 1 t) (iblk2 V c 2 t) (iblk2 V c 3 t) (iblk2 V c 4 t) (iblk2 V c 5 t) (fun d => (dat2 V c).before 6 t d) (even2 t h0).1 (even2 t h0).2 Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW
  · rw [show (dat2 V c).leavesExact 6 t = owns (c : Thread nD τ) (st2_6 t) fullShare ((dat2 V c).after 6 t) from by
      unfold Dat.leavesExact; rw [liveAt2_6 t h0], after2_6]
    have hz : t.val ≠ 0 := fun hz => h0 (by rw [hz])
    unfold res2
    rw [acc2_odd V c t.val t.isLt h0, PhiS2_castSucc V c t, PhiS2_pos V c _ _ hz]
    iintro ⟨⟨⟨HS, Hot⟩, Hg⟩, Ho, HW⟩
    iapply (body_norm c (grid2.coords t) _ _ _ _ _ _ _ _ _ _ _ _ _ _ _ _ (iblk2 V c 0 t) (iblk2 V c 1 t) (iblk2 V c 2 t) (iblk2 V c 3 t) (iblk2 V c 4 t) (iblk2 V c 5 t) (fun d => (dat2 V c).before 6 t d) (odd2 t h0).1 (odd2 t h0).2 _ Set.univ _)
    isplitl [HS]; · iexact HS
    isplitl [HW]; · iexact HW
    iintro ⟨HS, HW⟩
    isplitl [HS Hot Hg]
    · isplitl [HS Hot]
      · isplitl [HS]; · iexact HS
        iexact Hot
      iexact Hg
    isplitl [Ho]; · iexact Ho
    iexact HW

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have hN : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ hN, PhiA2_eq]
  iintro ⟨⟨HS, Hot⟩, Hg⟩
  isplitl [HS Hot]
  · isplitl [HS]
    · iexists _; iexact HS
    iexact Hot
  iexact Hg

end Cert.KernelIdeal.Hand

end
-- ==== Proof.KI.Assemble.lean ====
import proofs.«151264_j87634512708198_1_alg».proof.Proof.KI.R0.Frame
import proofs.«151264_j87634512708198_1_alg».proof.Proof.KI.R1.Frame
import proofs.«151264_j87634512708198_1_alg».proof.Proof.KI.R2.Frame
import proofs.«151264_j87634512708198_1_alg».proof.Proof.Gen.KernelIdeal.Regions
import proofs.«151264_j87634512708198_1_alg».proof.Proof.LibRegionHeld

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev Vof (W : Dev nD → Valuation τ sig (Elt F)) : (c : Dev nD) → (b : Ref sig .tc) → Buf (Elt F) ((c : Thread nD τ).loc b) :=
  fun c b => W c (Proc.devRef .tc b)

abbrev Wv0 : Dev nD → Valuation τ sig (Elt F) := fun c b => m (c, b)

def Wv1 (c : Dev nD) : Valuation τ sig (Elt F) :=
  Pipeline.withArrays spec0 c (Wv0 m c) fun w => (dat0 (Vof (Wv0 m)) c).arrAt w cfg0.N

def Wv2 (c : Dev nD) : Valuation τ sig (Elt F) :=
  Pipeline.withArrays spec1 c (Wv1 m c) fun w => (dat1 (Vof (Wv1 m)) c).arrAt w cfg1.N

def Wv3 (c : Dev nD) : Valuation τ sig (Elt F) :=
  Pipeline.withArrays spec2 c (Wv2 m c) fun w => (dat2 (Vof (Wv2 m)) c).arrAt w cfg2.N

theorem hF0 (c : Dev nD) (w : Fin cfg0.W) :
    (dat0 (Vof (Wv0 m)) c).arrAt w cfg0.N = Wv1 m c (Proc.devRef .tc (Pipeline.arrRef spec0 w)) := by
  unfold Wv1
  exact (Pipeline.withArrays_arr spec0 launch0.win.arr_inj c (Wv0 m c) (fun w => (dat0 (Vof (Wv0 m)) c).arrAt w cfg0.N) w).symm

theorem hrest0 (c : Dev nD) (b : Ref sig .tc) (hb : b ∉ Finset.univ.image (Pipeline.arrRef spec0)) :
    Wv1 m c (Proc.devRef .tc b) = Wv0 m c (Proc.devRef .tc b) := by
  unfold Wv1
  exact Pipeline.withArrays_hrest spec0 c (Wv0 m c) (fun w => (dat0 (Vof (Wv0 m)) c).arrAt w cfg0.N) b hb

theorem hF1 (c : Dev nD) (w : Fin cfg1.W) :
    (dat1 (Vof (Wv1 m)) c).arrAt w cfg1.N = Wv2 m c (Proc.devRef .tc (Pipeline.arrRef spec1 w)) := by
  unfold Wv2
  exact (Pipeline.withArrays_arr spec1 launch1.win.arr_inj c (Wv1 m c) (fun w => (dat1 (Vof (Wv1 m)) c).arrAt w cfg1.N) w).symm

theorem hrest1 (c : Dev nD) (b : Ref sig .tc) (hb : b ∉ Finset.univ.image (Pipeline.arrRef spec1)) :
    Wv2 m c (Proc.devRef .tc b) = Wv1 m c (Proc.devRef .tc b) := by
  unfold Wv2
  exact Pipeline.withArrays_hrest spec1 c (Wv1 m c) (fun w => (dat1 (Vof (Wv1 m)) c).arrAt w cfg1.N) b hb

theorem hF2 (c : Dev nD) (w : Fin cfg2.W) :
    (dat2 (Vof (Wv2 m)) c).arrAt w cfg2.N = Wv3 m c (Proc.devRef .tc (Pipeline.arrRef spec2 w)) := by
  unfold Wv3
  exact (Pipeline.withArrays_arr spec2 launch2.win.arr_inj c (Wv2 m c) (fun w => (dat2 (Vof (Wv2 m)) c).arrAt w cfg2.N) w).symm

theorem hrest2 (c : Dev nD) (b : Ref sig .tc) (hb : b ∉ Finset.univ.image (Pipeline.arrRef spec2)) :
    Wv3 m c (Proc.devRef .tc b) = Wv2 m c (Proc.devRef .tc b) := by
  unfold Wv3
  exact Pipeline.withArrays_hrest spec2 c (Wv2 m c) (fun w => (dat2 (Vof (Wv2 m)) c).arrAt w cfg2.N) b hb

def pdats : (p : Fin 3) → (c : Dev nD) → Dat τ (Elt F) Unit ℕ (UR sig nD τ) ℕ (Pipeline.pin (pcfgs (F := F)) adm p) c
  | ⟨0, _⟩ => fun c => dat0 (Vof (Wv0 m)) c
  | ⟨1, _⟩ => fun c => dat1 (Vof (Wv1 m)) c
  | ⟨2, _⟩ => fun c => dat2 (Vof (Wv2 m)) c

abbrev L : GSem nD τ sig → Finset Unit := fun _ => ∅
abbrev lv : GSem nD τ sig → Unit → ℕ := fun _ _ => 0

set_option backward.isDefEq.respectTransparency.types false in

def reg0 : RegionSeg (pcfgs (F := F)) adm (pdats m) () defs₀ Variants.none L lv 0 :=
  Pipeline.RegionSeg.ofHeld (pcfgs (F := F)) adm (pdats m) defs₀ Variants.none L lv 0
    launch0.win launch0.block_pos launch0.arr_whole launch0.stage_whole
    (fun c => Pipeline.emp_prefHeld_of_no_table _ rfl c _ _)
    (fun c => body_obligation0 (Vof (Wv0 m)) c)
    (fun _ _ => rfl) (fun _ _ => rfl) (fun _ => rfl)
    (Wv0 m) (Wv1 m)
    (fun _ _ => rfl)
    (fun c w => hF0 m c w)
    (fun c b hb => hrest0 m c b hb)
    (fun c => hin0 _ c) (fun c => hout0 _ c)

set_option backward.isDefEq.respectTransparency.types false in

def reg1 : RegionSeg (pcfgs (F := F)) adm (pdats m) () defs₀ Variants.none L lv 1 :=
  Pipeline.RegionSeg.ofHeld (pcfgs (F := F)) adm (pdats m) defs₀ Variants.none L lv 1
    launch1.win launch1.block_pos launch1.arr_whole launch1.stage_whole
    (fun c => Pipeline.emp_prefHeld_of_no_table _ rfl c _ _)
    (fun c => body_obligation1 (Vof (Wv1 m)) c)
    (fun _ _ => rfl) (fun _ _ => rfl) (fun _ => rfl)
    (Wv1 m) (Wv2 m)
    (fun _ _ => rfl)
    (fun c w => hF1 m c w)
    (fun c b hb => hrest1 m c b hb)
    (fun c => hin1 _ c) (fun c => hout1 _ c)

set_option backward.isDefEq.respectTransparency.types false in

def reg2 : RegionSeg (pcfgs (F := F)) adm (pdats m) () defs₀ Variants.none L lv 2 :=
  Pipeline.RegionSeg.ofHeld (pcfgs (F := F)) adm (pdats m) defs₀ Variants.none L lv 2
    launch2.win launch2.block_pos launch2.arr_whole launch2.stage_whole
    (fun c => Pipeline.emp_prefHeld_of_no_table _ rfl c _ _)
    (fun c => body_obligation2 (Vof (Wv2 m)) c)
    (fun _ _ => rfl) (fun _ _ => rfl) (fun _ => rfl)
    (Wv2 m) (Wv3 m)
    (fun _ _ => rfl)
    (fun c w => hF2 m c w)
    (fun c b hb => hrest2 m c b hb)
    (fun c => hin2 _ c) (fun c => hout2 _ c)

set_option backward.isDefEq.respectTransparency.types false in

theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Wv3 m c b) :=
  Pipeline.θ_run_regions_kit (pcfgs (F := F)) adm (pdats m) () cellOf_inj emb₁ defs₀ Variants.none L lv m ρ main
    [.region (reg0 m), .region (reg1 m), .region (reg2 m)]
    (fun c Q => by rw [main_segs adm (pdats m) () Variants.none L lv (reg0 m) (reg1 m) (reg2 m) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Pipeline.heldIdle (Wv0 m)) (Tₙ := fun c => StableHlo.held (c : Thread nD τ) (Pipeline.ucRefs τ sig) (Wv3 m c))
    (hch := ⟨fun c => by show (Pipeline.heldIdle (Wv0 m) c : sProp 𝕄) ⊢ Pipeline.heldIdle (Wv0 m) c; exact .rfl,
      fun c => by show (Pipeline.heldIdle (Wv1 m) c : sProp 𝕄) ⊢ Pipeline.heldIdle (Wv1 m) c; exact .rfl,
      fun c => by show (Pipeline.heldIdle (Wv2 m) c : sProp 𝕄) ⊢ Pipeline.heldIdle (Wv2 m) c; exact .rfl,
      fun c => by
        show (Pipeline.heldIdle (Wv3 m) c : sProp 𝕄) ⊢ _
        iintro ⟨Hh, -, Ho⟩
        isplitl [Hh]; · iexact Hh
        iexact Ho⟩)
    (hinit := by
      refine Pipeline.initEach L lv fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv3 m c b)
    (hfin := fun c s' => by
      iintro ⟨Hh, HSI⟩
      unfold StableHlo.held
      imodintro
      iapply (pointsTo_read_all (Pipeline.ucRefs τ sig) (fun b => (((c : Thread nD τ)).1, b)) (Wv3 m c) s')
      isplitl [Hh] <;> iassumption)
    (hQ := fun _ h => h)

theorem keep0 (c : Dev nD) (b : Ref sig .tc) (hb : b ≠ main_v0) :
    Wv1 m c (Proc.devRef .tc b) = Wv0 m c (Proc.devRef .tc b) := by
  by_cases hmem : b ∈ Finset.univ.image (Pipeline.arrRef spec0)
  · obtain ⟨w, -, rfl⟩ := Finset.mem_image.mp hmem
    unfold Wv1
    rw [Pipeline.withArrays_arr spec0 launch0.win.arr_inj c _ _ w]
    fin_cases w <;> first | exact absurd rfl hb | exact (dat0 (Vof (Wv0 m)) c).arrAt_in _ rfl _
  · exact Pipeline.withArrays_hrest spec0 c (Wv0 m c) _ b hmem

theorem out0 (c : Dev nD) :
    Wv1 m c (Proc.devRef .tc main_v0) = (dat0 (Vof (Wv0 m)) c).arrAt 6 cfg0.N := by
  unfold Wv1
  exact Pipeline.withArrays_arr spec0 launch0.win.arr_inj c _ _ 6

theorem keep1 (c : Dev nD) (b : Ref sig .tc) (hb : b ≠ main_v1) :
    Wv2 m c (Proc.devRef .tc b) = Wv1 m c (Proc.devRef .tc b) := by
  by_cases hmem : b ∈ Finset.univ.image (Pipeline.arrRef spec1)
  · obtain ⟨w, -, rfl⟩ := Finset.mem_image.mp hmem
    unfold Wv2
    rw [Pipeline.withArrays_arr spec1 launch1.win.arr_inj c _ _ w]
    fin_cases w <;> first | exact absurd rfl hb | exact (dat1 (Vof (Wv1 m)) c).arrAt_in _ rfl _
  · exact Pipeline.withArrays_hrest spec1 c (Wv1 m c) _ b hmem

theorem out1 (c : Dev nD) :
    Wv2 m c (Proc.devRef .tc main_v1) = (dat1 (Vof (Wv1 m)) c).arrAt 6 cfg1.N := by
  unfold Wv2
  exact Pipeline.withArrays_arr spec1 launch1.win.arr_inj c _ _ 6

theorem keep2 (c : Dev nD) (b : Ref sig .tc) (hb : b ≠ main_v2) :
    Wv3 m c (Proc.devRef .tc b) = Wv2 m c (Proc.devRef .tc b) := by
  by_cases hmem : b ∈ Finset.univ.image (Pipeline.arrRef spec2)
  · obtain ⟨w, -, rfl⟩ := Finset.mem_image.mp hmem
    unfold Wv3
    rw [Pipeline.withArrays_arr spec2 launch2.win.arr_inj c _ _ w]
    fin_cases w <;> first | exact absurd rfl hb | exact (dat2 (Vof (Wv2 m)) c).arrAt_in _ rfl _
  · exact Pipeline.withArrays_hrest spec2 c (Wv2 m c) _ b hmem

theorem out2 (c : Dev nD) :
    Wv3 m c (Proc.devRef .tc main_v2) = (dat2 (Vof (Wv2 m)) c).arrAt 6 cfg2.N := by
  unfold Wv3
  exact Pipeline.withArrays_arr spec2 launch2.win.arr_inj c _ _ 6

theorem kept (c : Dev nD) (b : Ref sig .tc) (h0 : b ≠ main_v0) (h1 : b ≠ main_v1) (h2 : b ≠ main_v2) :
    Wv3 m c (Proc.devRef .tc b) = m ((c : Thread nD τ).loc b) :=
  (keep2 m c b h2).trans ((keep1 m c b h1).trans (keep0 m c b h0))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem ends (ρ : Dev nD → PrngReg) :
    θ_run defs (onTc (τ := τ) (main (F := F))) ⟨m, fun _ => 0, ρ⟩ (fun r => ∀ (c : Dev nD) (b : Ref sig .tc),
      ¬(Proc.devRef .tc b : DevRef τ sig).isScoped → r.2.mem ((c.tc : Thread nD τ).loc b) = Wv3 m c (Proc.devRef .tc b)) :=
  (θ_run defs _ _).mono (fun _ h c b hs => h c _ (mem_uc b hs)) (run_all m ρ)

end Cert.KernelIdeal.Hand

end
-- ==== Proof.Spec.lean ====
import Idealize.ShloMosaic.PureOps.Ideal
import Idealize.ShloMosaic.Lib.ValueIdx

noncomputable section

namespace Cert.Gcn

open Idealize.ShloMosaic Idealize.ShloMosaic.ValueIdx

abbrev SH : Shape := ⟨3, ![16, 2048, 128]⟩
abbrev SA : Shape := ⟨3, ![16, 2048, 2048]⟩
abbrev SW : Shape := ⟨2, ![128, 128]⟩
abbrev SV : Shape := ⟨1, ![128]⟩

abbrev w0 : EReal := Ideal.ofBits .f32 0x00000000#32
abbrev w128 : EReal := Ideal.ofBits .f32 0x43000000#32
abbrev wEps : EReal := Ideal.ofBits .f32 0x3727C5AC#32

def agg (adj : SA.Idx → EReal) (h : SH.Idx → EReal) (b : Fin 16) (n : Fin 2048) (e : Fin 128) : EReal :=
  ∑ j : Fin 2048, adj (ix3 b n j) * h (ix3 b j e)

def lin (a : Fin 128 → EReal) (W : SW.Idx → EReal) (bias : SV.Idx → EReal) (d : Fin 128) : EReal :=
  (∑ e : Fin 128, a e * W (ix2 e d)) + bias (ix1 d)

def mean128 (f : Fin 128 → EReal) : EReal := Ideal.div (w0 + ∑ d : Fin 128, f d) w128

def normRelu (l : Fin 128 → EReal) (g be : SV.Idx → EReal) (d : Fin 128) : EReal :=
  max ((l d - mean128 l) * Ideal.rsqrt (mean128 (fun d' => (l d' - mean128 l) * (l d' - mean128 l)) + wEps) * g (ix1 d)
    + be (ix1 d)) w0

def layer (adj : SA.Idx → EReal) (h : SH.Idx → EReal) (W : SW.Idx → EReal) (bias g be : SV.Idx → EReal) : SH.Idx → EReal :=
  fun i => normRelu (lin (agg adj h ⟨(i 0).val, (i 0).isLt⟩ ⟨(i 1).val, (i 1).isLt⟩) W bias) g be ⟨(i 2).val, (i 2).isLt⟩

theorem layer_ix3 (adj : SA.Idx → EReal) (h : SH.Idx → EReal) (W : SW.Idx → EReal) (bias g be : SV.Idx → EReal)
    (b : Fin 16) (n : Fin 2048) (d : Fin 128) :
    layer adj h W bias g be (ix3 b n d) = normRelu (lin (agg adj h b n) W bias) g be d := rfl

theorem sum_halves (f : Fin 2048 → EReal) :
    ∑ j : Fin 2048, f j
      = (0 + ∑ j : Fin 1024, f ⟨j.val, by omega⟩) + ∑ j : Fin 1024, f ⟨1024 + j.val, by omega⟩ := by
  rw [zero_add]
  exact Fin.sum_univ_add (a := 1024) (b := 1024) (fun i : Fin (1024 + 1024) => f ⟨i.val, i.isLt⟩)

end Cert.Gcn

end
-- ==== Proof.KI.Pay.lean ====
import proofs.«151264_j87634512708198_1_alg».proof.Proof.Gen.KernelIdeal.Skeleton
import proofs.«151264_j87634512708198_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.TcCoe Idealize.SL.Sem Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem laneSum_apply (x : FVec Ideal S1024x128 .f32) (n : Fin 1024) :
    multiReduction (F := Ideal) .add [1] S1024 x 0x00000000#32 reduces_S1024x128_S1024 (.inl rfl) rfl (ix1 n)
      = ∑ d : Fin 128, x (ix2 n d) := by
  refine (Ideal.multiReduction_add_single x 0x00000000#32 reduces_S1024x128_S1024 (.inl rfl) rfl (ix1 n)).trans ?_
  show ∑ d : Fin 128, x (reduces_S1024x128_S1024.lift (ix1 n) d) = _
  refine Finset.sum_congr rfl fun d _ => congrArg x (funext fun ax => Fin.ext ?_)
  match ax with
  | ⟨0, _⟩ => rfl
  | ⟨1, _⟩ => rfl

theorem lhs2_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem lhs2_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs2_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs2_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

theorem mm2_apply (a : FVec Ideal S1024x1024 .bf16) (b : FVec Ideal S1024x128 .bf16) (n : Fin 1024) (e : Fin 128) :
    matmul dot_S1024x1024_S1024x128_S1024x128_1_0_0_1_n_n none a b (constant (F := Ideal) S1024x128 .f32 0x00000000#32) (ix2 n e)
      = ∑ j : Fin 1024, a (ix2 n j) * b (ix2 j e) := by
  refine (Ideal.matmul_constant_zero_apply dot_S1024x1024_S1024x128_S1024x128_1_0_0_1_n_n none a b (ix2 n e)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 n e)
      ((contrEquiv1 dot_S1024x1024_S1024x128_S1024x128_1_0_0_1_n_n 1024 rfl rfl).symm k) = ix2 n k :=
    funext fun ax => Fin.ext (by
      match ax with
      | ⟨0, _⟩ => exact lhs2_0 _ _
      | ⟨1, _⟩ => exact (lhs2_1 _ _).trans hk)
  have er : dot_S1024x1024_S1024x128_S1024x128_1_0_0_1_n_n.rhsIdx (ix2 n e)
      ((contrEquiv1 dot_S1024x1024_S1024x128_S1024x128_1_0_0_1_n_n 1024 rfl rfl).symm k) = ix2 k e :=
    funext fun ax => Fin.ext (by
      match ax with
      | ⟨0, _⟩ => exact (rhs2_0 _ _).trans hk
      | ⟨1, _⟩ => exact rhs2_1 _ _)
  rw [el, er]

theorem lhs3_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhs3_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs3_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs3_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

theorem mm3_apply (a : FVec Ideal S1024x128 .bf16) (b : FVec Ideal S128x128 .bf16) (n : Fin 1024) (d : Fin 128) :
    matmul dot_S1024x128_S128x128_S1024x128_1_0_0_1_n_n none a b (constant (F := Ideal) S1024x128 .f32 0x00000000#32) (ix2 n d)
      = ∑ e : Fin 128, a (ix2 n e) * b (ix2 e d) := by
  refine (Ideal.matmul_constant_zero_apply dot_S1024x128_S128x128_S1024x128_1_0_0_1_n_n none a b (ix2 n d)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n d)
      ((contrEquiv1 dot_S1024x128_S128x128_S1024x128_1_0_0_1_n_n 128 rfl rfl).symm k) = ix2 n k :=
    funext fun ax => Fin.ext (by
      match ax with
      | ⟨0, _⟩ => exact lhs3_0 _ _
      | ⟨1, _⟩ => exact (lhs3_1 _ _).trans hk)
  have er : dot_S1024x128_S128x128_S1024x128_1_0_0_1_n_n.rhsIdx (ix2 n d)
      ((contrEquiv1 dot_S1024x128_S128x128_S1024x128_1_0_0_1_n_n 128 rfl rfl).symm k) = ix2 k d :=
    funext fun ax => Fin.ext (by
      match ax with
      | ⟨0, _⟩ => exact (rhs3_0 _ _).trans hk
      | ⟨1, _⟩ => exact rhs3_1 _ _)
  rw [el, er]

def rowBcast (g : FVec Ideal S128 .f32) : FVec Ideal S1024x128 .f32 :=
  broadcastTo S1024x128 (shapeCast S1x128 g shapeCasts_S128_S1x128) broadcasts_S1x128_S1024x128

theorem rowBcast_apply (g : FVec Ideal S128 .f32) (n : Fin 1024) (d : Fin 128) : rowBcast g (ix2 n d) = g (ix1 d) := by
  unfold rowBcast
  rw [broadcastTo_1b_ab_apply, shapeCast_a_1a_apply]

def proj (v18 : FVec Ideal S1024x128 .f32) (v19 : FVec Ideal S128x128 .f32) (v23 : FVec Ideal S128 .f32) :
    FVec Ideal S1024x128 .f32 :=
  addf (matmul dot_S1024x128_S128x128_S1024x128_1_0_0_1_n_n none (truncf .bf16 v18 bitsLt_bf16_f32)
      (truncf .bf16 v19 bitsLt_bf16_f32) (constant (F := Ideal) S1024x128 .f32 0x00000000#32))
    (rowBcast v23)

theorem proj_apply (v18 : FVec Ideal S1024x128 .f32) (v19 : FVec Ideal S128x128 .f32) (v23 : FVec Ideal S128 .f32)
    (n : Fin 1024) (d : Fin 128) :
    proj v18 v19 v23 (ix2 n d) = Cert.Gcn.lin (fun e => v18 (ix2 n e)) v19 v23 d := by
  unfold proj Cert.Gcn.lin
  refine (addf_apply _ _ _).trans ?_
  rw [mm3_apply, rowBcast_apply]
  rfl

def rowMean (x : FVec Ideal S1024x128 .f32) : FVec Ideal S1024x1 .f32 :=
  divf (shapeCast S1024x1 (multiReduction (F := Ideal) .add [1] S1024 x 0x00000000#32 reduces_S1024x128_S1024 (.inl rfl) rfl)
      shapeCasts_S1024_S1024x1)
    (broadcast S1024x1 (Scalar.ofBits (F := Ideal) .f32 0x43000000#32))

theorem rowMean_apply (x : FVec Ideal S1024x128 .f32) (n : Fin 1024) (u : Fin 1) :
    rowMean x (ix2 n u) = Cert.Gcn.mean128 fun d => x (ix2 n d) := by
  unfold rowMean Cert.Gcn.mean128
  refine (divf_apply _ _ _).trans ?_
  rw [shapeCast_a_a1_apply, laneSum_apply]
  show Ideal.div _ (Ideal.ofBits .f32 0x43000000#32) = Ideal.div (Ideal.ofBits .f32 0x00000000#32 + _) (Ideal.ofBits .f32 0x43000000#32)
  rw [Ideal.ofBits_zero_f32, zero_add]

def centred (x : FVec Ideal S1024x128 .f32) : FVec Ideal S1024x128 .f32 :=
  subf x (broadcastTo S1024x128 (rowMean x) broadcasts_S1024x1_S1024x128)

theorem centred_apply (x : FVec Ideal S1024x128 .f32) (n : Fin 1024) (d : Fin 128) :
    centred x (ix2 n d) = x (ix2 n d) - Cert.Gcn.mean128 fun d' => x (ix2 n d') := by
  unfold centred
  refine (subf_apply _ _ _).trans ?_
  rw [broadcastTo_a1_ab_apply, rowMean_apply]

def invStd (x : FVec Ideal S1024x128 .f32) : FVec Ideal S1024x1 .f32 :=
  rsqrt (addf (rowMean (mulf (centred x) (centred x))) (broadcast S1024x1 (Scalar.ofBits (F := Ideal) .f32 0x3727C5AC#32)))

theorem invStd_apply (x : FVec Ideal S1024x128 .f32) (n : Fin 1024) (u : Fin 1) :
    invStd x (ix2 n u)
      = Ideal.rsqrt (Cert.Gcn.mean128 (fun d' => (x (ix2 n d') - Cert.Gcn.mean128 fun d => x (ix2 n d))
          * (x (ix2 n d') - Cert.Gcn.mean128 fun d => x (ix2 n d))) + Cert.Gcn.wEps) := by
  unfold invStd
  show Ideal.rsqrt (rowMean (mulf (centred x) (centred x)) (ix2 n u) + Ideal.ofBits .f32 0x3727C5AC#32) = _
  rw [rowMean_apply]
  simp only [mulf_apply, centred_apply]

def normed (x : FVec Ideal S1024x128 .f32) (g be : FVec Ideal S128 .f32) : FVec Ideal S1024x128 .f32 :=
  maximumf
    (addf (mulf (mulf (centred x) (broadcastTo S1024x128 (invStd x) broadcasts_S1024x1_S1024x128)) (rowBcast g)) (rowBcast be))
    (broadcast S1024x128 (Scalar.ofBits (F := Ideal) .f32 0x00000000#32))

theorem normed_apply (x : FVec Ideal S1024x128 .f32) (g be : FVec Ideal S128 .f32) (n : Fin 1024) (d : Fin 128) :
    normed x g be (ix2 n d) = Cert.Gcn.normRelu (fun d' => x (ix2 n d')) g be d := by
  unfold normed Cert.Gcn.normRelu
  show max (centred x (ix2 n d) * broadcastTo S1024x128 (invStd x) broadcasts_S1024x1_S1024x128 (ix2 n d) * rowBcast g (ix2 n d)
      + rowBcast be (ix2 n d)) (Ideal.ofBits .f32 0x00000000#32) = _
  rw [centred_apply, broadcastTo_a1_ab_apply, invStd_apply, rowBcast_apply, rowBcast_apply]

theorem pay1_apply (n : Fin 1024) (e : Fin 128) : k0_pay1 (F := Ideal) (ix2 n e) = 0 := by
  show shapeCast S1024x128 (broadcast S1024x128 (Scalar.ofBits (F := Ideal) .f32 0x00000000#32)) shapeCasts_S1024x128_S1024x128
    (ix2 n e) = 0
  rw [shapeCast_self]
  exact Ideal.ofBits_zero_f32

theorem pay2_apply (v3 : Vec Ideal S1x1024x1024 .f32) (v6 : Vec Ideal S1x1024x128 .f32) (v9 : Vec Ideal S1024x128 .f32)
    (n : Fin 1024) (e : Fin 128) :
    k0_pay2 (F := Ideal) v3 v6 v9 (ix2 n e) = v9 (ix2 n e) + ∑ j : Fin 1024, v3 (ix3 (0 : Fin 1) n j) * v6 (ix3 (0 : Fin 1) j e) := by
  show shapeCast S1024x128
      (addf v9 (matmul dot_S1024x1024_S1024x128_S1024x128_1_0_0_1_n_n none
        (truncf .bf16 (shapeCast S1024x1024 v3 shapeCasts_S1x1024x1024_S1024x1024) bitsLt_bf16_f32)
        (truncf .bf16 (shapeCast S1024x128 v6 shapeCasts_S1x1024x128_S1024x128) bitsLt_bf16_f32)
        (constant (F := Ideal) S1024x128 .f32 0x00000000#32)))
      shapeCasts_S1024x128_S1024x128 (ix2 n e) = _
  rw [shapeCast_self]
  refine (addf_apply _ _ _).trans (congrArg (v9 (ix2 n e) + ·) ?_)
  rw [mm2_apply]
  refine Finset.sum_congr rfl fun j _ => ?_
  show shapeCast S1024x1024 v3 shapeCasts_S1x1024x1024_S1024x1024 (ix2 n j)
      * shapeCast S1024x128 v6 shapeCasts_S1x1024x128_S1024x128 (ix2 j e) = _
  rw [shapeCast_1ab_ab_apply, shapeCast_1ab_ab_apply]

theorem pay3_apply (v18 : Vec Ideal S1024x128 .f32) (v19 : Vec Ideal S128x128 .f32) (v23 v45 v49 : Vec Ideal S128 .f32)
    (n : Fin 1024) (d : Fin 128) :
    k0_pay3 (F := Ideal) v18 v19 v23 v45 v49 (ix3 (0 : Fin 1) n d)
      = Cert.Gcn.normRelu (Cert.Gcn.lin (fun e => v18 (ix2 n e)) v19 v23) v45 v49 d := by
  show shapeCast S1x1024x128 (normed (proj v18 v19 v23) v45 v49) shapeCasts_S1024x128_S1x1024x128 (ix3 (0 : Fin 1) n d) = _
  rw [shapeCast_ab_1ab_apply, normed_apply]
  exact congrArg (fun l => Cert.Gcn.normRelu l v45 v49 d) (funext fun d' => proj_apply v18 v19 v23 n d')

/-- Zero plus the two halves' block products is the aggregation over all 2048 neighbours, so the stored entry is the layer's. -/
theorem core (adj : Cert.Gcn.SA.Idx → EReal) (h : Cert.Gcn.SH.Idx → EReal) (W : Cert.Gcn.SW.Idx → EReal)
    (bias g be : Cert.Gcn.SV.Idx → EReal)
    (A' A : Vec Ideal S1x1024x1024 .f32) (F' F : Vec Ideal S1x1024x128 .f32)
    (b : Fin 16) (r : Fin 2048) (n : Fin 1024)
    (hA' : ∀ j : Fin 1024, A' (ix3 (0 : Fin 1) n j) = adj (ix3 b r ⟨j.val, by omega⟩))
    (hA : ∀ j : Fin 1024, A (ix3 (0 : Fin 1) n j) = adj (ix3 b r ⟨1024 + j.val, by omega⟩))
    (hF' : ∀ (j : Fin 1024) (e : Fin 128), F' (ix3 (0 : Fin 1) j e) = h (ix3 b ⟨j.val, by omega⟩ e))
    (hF : ∀ (j : Fin 1024) (e : Fin 128), F (ix3 (0 : Fin 1) j e) = h (ix3 b ⟨1024 + j.val, by omega⟩ e))
    (d : Fin 128) :
    k0_pay3 (F := Ideal) (k0_pay2 A F (k0_pay2 A' F' (k0_pay1 (F := Ideal)))) W bias g be (ix3 (0 : Fin 1) n d)
      = Cert.Gcn.layer adj h W bias g be (ix3 b r d) := by
  rw [Cert.Gcn.layer_ix3]
  refine (pay3_apply (k0_pay2 A F (k0_pay2 A' F' (k0_pay1 (F := Ideal)))) W bias g be n d).trans ?_
  refine congrArg (fun l => Cert.Gcn.normRelu (Cert.Gcn.lin l W bias) g be d) (funext fun e => ?_)
  refine (pay2_apply A F (k0_pay2 A' F' (k0_pay1 (F := Ideal))) n e).trans ?_
  rw [pay2_apply A' F' (k0_pay1 (F := Ideal)) n e, pay1_apply n e]
  unfold Cert.Gcn.agg
  rw [Cert.Gcn.sum_halves]
  simp only [hA', hA, hF', hF]

end Cert.KernelIdeal.Pay

end
-- ==== Proof.KI.R0.Value.lean ====
import proofs.«151264_j87634512708198_1_alg».proof.Proof.KI.R0.Frame
import proofs.«151264_j87634512708198_1_alg».proof.Proof.KI.Pay
import proofs.«151264_j87634512708198_1_alg».proof.Proof.Spec
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable (V : (c : Dev nD) → (b : Ref sig .tc) → Buf (Elt Ideal) ((c : Thread nD τ).loc b))

abbrev val0_adjBlk (c : Dev nD) (t : Fin cfg0.N) : Vec Ideal S1x1024x1024 .f32 := iblk0 V c 0 t
abbrev val0_featBlk (c : Dev nD) (t : Fin cfg0.N) : Vec Ideal S1x1024x128 .f32 := iblk0 V c 1 t

theorem val0_lt (t : Fin cfg0.N) : t.val < 64 := by
  have hN : cfg0.N = 64 := N_0
  have := t.isLt
  omega

theorem val0_idx : ∀ t : Fin cfg0.N,
    (cfg0.win 0).index t (0 : Fin 3) = t.val / 4 ∧ (cfg0.win 0).index t (1 : Fin 3) = t.val / 2 % 2
    ∧ (cfg0.win 0).index t (2 : Fin 3) = t.val % 2
    ∧ (cfg0.win 1).index t (0 : Fin 3) = t.val / 4 ∧ (cfg0.win 1).index t (1 : Fin 3) = t.val % 2
    ∧ (cfg0.win 1).index t (2 : Fin 3) = 0
    ∧ (cfg0.win 2).index t (0 : Fin 2) = 0 ∧ (cfg0.win 2).index t (1 : Fin 2) = 0
    ∧ (cfg0.win 3).index t (0 : Fin 1) = 0 ∧ (cfg0.win 4).index t (0 : Fin 1) = 0 ∧ (cfg0.win 5).index t (0 : Fin 1) = 0
    ∧ (cfg0.win 6).index t (0 : Fin 3) = t.val / 4 ∧ (cfg0.win 6).index t (1 : Fin 3) = t.val / 2 % 2
    ∧ (cfg0.win 6).index t (2 : Fin 3) = 0 :=
  (by decide +kernel : ∀ t : Fin grid0.N, _)

theorem val0_adjBlk_apply (c : Dev nD) (t : Fin cfg0.N) (n j : Fin 1024) (b : Fin 16) (r k : Fin 2048)
    (hb : b.val = t.val / 4) (hr : r.val = t.val / 2 % 2 * 1024 + n.val) (hk : k.val = t.val % 2 * 1024 + j.val) :
    val0_adjBlk V c t (ix3 (0 : Fin 1) n j) = V c (Pipeline.arrRef spec0 0) (ix3 b r k) := by
  obtain ⟨ia, ib, ic, -⟩ := val0_idx t
  show V c (Pipeline.arrRef spec0 0) (((cfg0.win 0).blk t).view.emb (ix3 (0 : Fin 1) n j)) = _
  refine congrArg (V c (Pipeline.arrRef spec0 0)) (funext fun a => Fin.ext ?_)
  match a with
  | ⟨0, _⟩ => show (cfg0.win 0).index t (0 : Fin 3) * 1 + 1 * 0 = b.val; rw [ia, hb]; omega
  | ⟨1, _⟩ => show (cfg0.win 0).index t (1 : Fin 3) * 1024 + 1 * n.val = r.val; rw [ib, hr]; omega
  | ⟨2, _⟩ => show (cfg0.win 0).index t (2 : Fin 3) * 1024 + 1 * j.val = k.val; rw [ic, hk]; omega

theorem val0_featBlk_apply (c : Dev nD) (t : Fin cfg0.N) (j : Fin 1024) (e : Fin 128) (b : Fin 16) (k : Fin 2048)
    (hb : b.val = t.val / 4) (hk : k.val = t.val % 2 * 1024 + j.val) :
    val0_featBlk V c t (ix3 (0 : Fin 1) j e) = V c (Pipeline.arrRef spec0 1) (ix3 b k e) := by
  obtain ⟨-, -, -, id', ie, ig, -⟩ := val0_idx t
  show V c (Pipeline.arrRef spec0 1) (((cfg0.win 1).blk t).view.emb (ix3 (0 : Fin 1) j e)) = _
  refine congrArg (V c (Pipeline.arrRef spec0 1)) (funext fun a => Fin.ext ?_)
  match a with
  | ⟨0, _⟩ => show (cfg0.win 1).index t (0 : Fin 3) * 1 + 1 * 0 = b.val; rw [id', hb]; omega
  | ⟨1, _⟩ => show (cfg0.win 1).index t (1 : Fin 3) * 1024 + 1 * j.val = k.val; rw [ie, hk]; omega
  | ⟨2, _⟩ => show (cfg0.win 1).index t (2 : Fin 3) * 128 + 1 * e.val = e.val; rw [ig]; omega

theorem val0_wBlk_eq (c : Dev nD) (t : Fin cfg0.N) : (iblk0 V c 2 t : Vec Ideal S128x128 .f32) = V c (Pipeline.arrRef spec0 2) := by
  obtain ⟨-, -, -, -, -, -, ih, ii, -⟩ := val0_idx t
  funext y
  obtain ⟨p, q, rfl⟩ : ∃ (p : Fin 128) (q : Fin 128), y = ix2 p q := ⟨y 0, y 1, eq_ix2 y⟩
  show V c (Pipeline.arrRef spec0 2) (((cfg0.win 2).blk t).view.emb (ix2 p q)) = V c (Pipeline.arrRef spec0 2) (ix2 p q)
  refine congrArg (V c (Pipeline.arrRef spec0 2)) (funext fun a => Fin.ext ?_)
  match a with
  | ⟨0, _⟩ => show (cfg0.win 2).index t (0 : Fin 2) * 128 + 1 * p.val = p.val; rw [ih]; omega
  | ⟨1, _⟩ => show (cfg0.win 2).index t (1 : Fin 2) * 128 + 1 * q.val = q.val; rw [ii]; omega
theorem val0_biasBlk_eq (c : Dev nD) (t : Fin cfg0.N) : (iblk0 V c 3 t : Vec Ideal S128 .f32) = V c (Pipeline.arrRef spec0 3) := by
  obtain ⟨-, -, -, -, -, -, -, -, ij, -⟩ := val0_idx t
  funext y
  obtain ⟨p, rfl⟩ : ∃ (p : Fin 128), y = ix1 p := ⟨y 0, eq_ix1 y⟩
  show V c (Pipeline.arrRef spec0 3) (((cfg0.win 3).blk t).view.emb (ix1 p)) = V c (Pipeline.arrRef spec0 3) (ix1 p)
  refine congrArg (V c (Pipeline.arrRef spec0 3)) (funext fun a => Fin.ext ?_)
  match a with
  | ⟨0, _⟩ => show (cfg0.win 3).index t (0 : Fin 1) * 128 + 1 * p.val = p.val; rw [ij]; omega
theorem val0_scaleBlk_eq (c : Dev nD) (t : Fin cfg0.N) : (iblk0 V c 4 t : Vec Ideal S128 .f32) = V c (Pipeline.arrRef spec0 4) := by
  obtain ⟨-, -, -, -, -, -, -, -, -, ik, -⟩ := val0_idx t
  funext y
  obtain ⟨p, rfl⟩ : ∃ (p : Fin 128), y = ix1 p := ⟨y 0, eq_ix1 y⟩
  show V c (Pipeline.arrRef spec0 4) (((cfg0.win 4).blk t).view.emb (ix1 p)) = V c (Pipeline.arrRef spec0 4) (ix1 p)
  refine congrArg (V c (Pipeline.arrRef spec0 4)) (funext fun a => Fin.ext ?_)
  match a with
  | ⟨0, _⟩ => show (cfg0.win 4).index t (0 : Fin 1) * 128 + 1 * p.val = p.val; rw [ik]; omega
theorem val0_shiftBlk_eq (c : Dev nD) (t : Fin cfg0.N) : (iblk0 V c 5 t : Vec Ideal S128 .f32) = V c (Pipeline.arrRef spec0 5) := by
  obtain ⟨-, -, -, -, -, -, -, -, -, -, il, -⟩ := val0_idx t
  funext y
  obtain ⟨p, rfl⟩ : ∃ (p : Fin 128), y = ix1 p := ⟨y 0, eq_ix1 y⟩
  show V c (Pipeline.arrRef spec0 5) (((cfg0.win 5).blk t).view.emb (ix1 p)) = V c (Pipeline.arrRef spec0 5) (ix1 p)
  refine congrArg (V c (Pipeline.arrRef spec0 5)) (funext fun a => Fin.ext ?_)
  match a with
  | ⟨0, _⟩ => show (cfg0.win 5).index t (0 : Fin 1) * 128 + 1 * p.val = p.val; rw [il]; omega

theorem val0_flushed (c : Dev nD) (t : Fin cfg0.N) (hf : (cfg0.win 6).flush t = true) :
    (dat0 (F := Ideal) V c).flushed 6 t
      = ((cfg0.win 6).blk t).view.read (Elt Ideal) (Cert.Gcn.layer (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))) := by
  have ht : t.val % 2 = 1 := (flush0_6 t).mp hf
  have hpar : ¬t.val % 2 = 0 := by omega
  have hpos := val0_lt t
  obtain ⟨-, -, -, -, -, -, -, -, -, -, -, im, io, ip⟩ := val0_idx t
  show (cfg0.win 6).cut (grid0.coords t) ((dat0 V c).after 6 t) = _
  rw [after0_6, res0_odd V c t hpar, val0_wBlk_eq, val0_biasBlk_eq, val0_scaleBlk_eq, val0_shiftBlk_eq]
  funext y
  obtain ⟨u, n, d, rfl⟩ : ∃ (u : Fin 1) (n : Fin 1024) (d : Fin 128), y = ix3 u n d := ⟨y 0, y 1, y 2, eq_ix3 y⟩
  obtain rfl : u = 0 := Subsingleton.elim _ _
  have hemb : ((cfg0.win 6).blk t).view.emb (ix3 (0 : Fin 1) n d)
      = ix3 (⟨t.val / 4, by omega⟩ : Fin 16) (⟨t.val / 2 % 2 * 1024 + n.val, by omega⟩ : Fin 2048) d :=
    funext fun a => Fin.ext (by
      match a with
      | ⟨0, _⟩ => show (cfg0.win 6).index t (0 : Fin 3) * 1 + 1 * 0 = t.val / 4; rw [im]; omega
      | ⟨1, _⟩ => show (cfg0.win 6).index t (1 : Fin 3) * 1024 + 1 * n.val = t.val / 2 % 2 * 1024 + n.val; rw [io]; omega
      | ⟨2, _⟩ => show (cfg0.win 6).index t (2 : Fin 3) * 128 + 1 * d.val = d.val; rw [ip]; omega)
  show k0_pay3 (F := Ideal) (k0_pay2 (val0_adjBlk V c t) (val0_featBlk V c t)
        (k0_pay2 (val0_adjBlk V c (prev0 t)) (val0_featBlk V c (prev0 t)) (k0_pay1 (F := Ideal))))
      (V c (Pipeline.arrRef spec0 2)) (V c (Pipeline.arrRef spec0 3)) (V c (Pipeline.arrRef spec0 4))
      (V c (Pipeline.arrRef spec0 5)) (ix3 (0 : Fin 1) n d)
    = (Cert.Gcn.layer (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))) (((cfg0.win 6).blk t).view.emb (ix3 (0 : Fin 1) n d))
  rw [hemb]
  exact Pay.core (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (val0_adjBlk V c (prev0 t)) (val0_adjBlk V c t) (val0_featBlk V c (prev0 t)) (val0_featBlk V c t)
    ⟨t.val / 4, by omega⟩ ⟨t.val / 2 % 2 * 1024 + n.val, by omega⟩ n
    (fun j => val0_adjBlk_apply V c (prev0 t) n j _ _ _ (by show t.val / 4 = (t.val - 1) / 4; omega)
      (by show t.val / 2 % 2 * 1024 + n.val = (t.val - 1) / 2 % 2 * 1024 + n.val; omega)
      (by show j.val = (t.val - 1) % 2 * 1024 + j.val; omega))
    (fun j => val0_adjBlk_apply V c t n j _ _ _ rfl rfl (by show 1024 + j.val = t.val % 2 * 1024 + j.val; omega))
    (fun j e => val0_featBlk_apply V c (prev0 t) j e _ _ (by show t.val / 4 = (t.val - 1) / 4; omega)
      (by show j.val = (t.val - 1) % 2 * 1024 + j.val; omega))
    (fun j e => val0_featBlk_apply V c t j e _ _ rfl (by show 1024 + j.val = t.val % 2 * 1024 + j.val; omega))
    d

theorem val0_cover (i : Cert.Gcn.SH.Idx) :
    ∃ t : Fin cfg0.N, (cfg0.win 6).flush t = true ∧ i ∈ ((cfg0.win 6).blk t).view.set := by
  have hpar : (i 0).val < 16 := (i 0).isLt
  have hrow : (i 1).val < 2048 := (i 1).isLt
  have hlane : (i 2).val < 128 := (i 2).isLt
  obtain ⟨t, ht⟩ : ∃ t : Fin cfg0.N, t.val = 4 * (i 0).val + 2 * ((i 1).val / 1024) + 1 :=
    ⟨⟨4 * (i 0).val + 2 * ((i 1).val / 1024) + 1, lt_of_lt_of_eq (by omega) N_0.symm⟩, rfl⟩
  obtain ⟨-, -, -, -, -, -, -, -, -, -, -, im, io, ip⟩ := val0_idx t
  refine ⟨t, (flush0_6 t).mpr (by omega), ?_⟩
  have hi : ((cfg0.win 6).blk t).view.emb
      (ix3 (0 : Fin 1) (⟨(i 1).val % 1024, Nat.mod_lt _ (by decide)⟩ : Fin 1024) (⟨(i 2).val, hlane⟩ : Fin 128)) = i :=
    funext fun a => Fin.ext (by
      match a with
      | ⟨0, _⟩ => show (cfg0.win 6).index t (0 : Fin 3) * 1 + 1 * 0 = (i 0).val; rw [im]; omega
      | ⟨1, _⟩ => show (cfg0.win 6).index t (1 : Fin 3) * 1024 + 1 * ((i 1).val % 1024) = (i 1).val; rw [io]; omega
      | ⟨2, _⟩ => show (cfg0.win 6).index t (2 : Fin 3) * 128 + 1 * (i 2).val = (i 2).val; rw [ip]; omega)
  exact Eq.mp (congrArg (fun x => x ∈ ((cfg0.win 6).blk t).view.set) hi) (((cfg0.win 6).blk t).view.emb_mem_set _)

theorem value0 (c : Dev nD) :
    (dat0 (F := Ideal) V c).arrAt 6 cfg0.N
      = Cert.Gcn.layer (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 _ (val0_flushed V c) (fun i => val0_cover i)

end Cert.KernelIdeal.Hand

end
-- ==== Proof.KI.R1.Value.lean ====
import proofs.«151264_j87634512708198_1_alg».proof.Proof.KI.R1.Frame
import proofs.«151264_j87634512708198_1_alg».proof.Proof.KI.Pay
import proofs.«151264_j87634512708198_1_alg».proof.Proof.Spec
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable (V : (c : Dev nD) → (b : Ref sig .tc) → Buf (Elt Ideal) ((c : Thread nD τ).loc b))

abbrev val1_adjBlk (c : Dev nD) (t : Fin cfg1.N) : Vec Ideal S1x1024x1024 .f32 := iblk1 V c 0 t
abbrev val1_featBlk (c : Dev nD) (t : Fin cfg1.N) : Vec Ideal S1x1024x128 .f32 := iblk1 V c 1 t

theorem val1_lt (t : Fin cfg1.N) : t.val < 64 := by
  have hN : cfg1.N = 64 := N_1
  have := t.isLt
  omega

theorem val1_idx : ∀ t : Fin cfg1.N,
    (cfg1.win 0).index t (0 : Fin 3) = t.val / 4 ∧ (cfg1.win 0).index t (1 : Fin 3) = t.val / 2 % 2
    ∧ (cfg1.win 0).index t (2 : Fin 3) = t.val % 2
    ∧ (cfg1.win 1).index t (0 : Fin 3) = t.val / 4 ∧ (cfg1.win 1).index t (1 : Fin 3) = t.val % 2
    ∧ (cfg1.win 1).index t (2 : Fin 3) = 0
    ∧ (cfg1.win 2).index t (0 : Fin 2) = 0 ∧ (cfg1.win 2).index t (1 : Fin 2) = 0
    ∧ (cfg1.win 3).index t (0 : Fin 1) = 0 ∧ (cfg1.win 4).index t (0 : Fin 1) = 0 ∧ (cfg1.win 5).index t (0 : Fin 1) = 0
    ∧ (cfg1.win 6).index t (0 : Fin 3) = t.val / 4 ∧ (cfg1.win 6).index t (1 : Fin 3) = t.val / 2 % 2
    ∧ (cfg1.win 6).index t (2 : Fin 3) = 0 :=
  (by decide +kernel : ∀ t : Fin grid1.N, _)

theorem val1_adjBlk_apply (c : Dev nD) (t : Fin cfg1.N) (n j : Fin 1024) (b : Fin 16) (r k : Fin 2048)
    (hb : b.val = t.val / 4) (hr : r.val = t.val / 2 % 2 * 1024 + n.val) (hk : k.val = t.val % 2 * 1024 + j.val) :
    val1_adjBlk V c t (ix3 (0 : Fin 1) n j) = V c (Pipeline.arrRef spec1 0) (ix3 b r k) := by
  obtain ⟨ia, ib, ic, -⟩ := val1_idx t
  show V c (Pipeline.arrRef spec1 0) (((cfg1.win 0).blk t).view.emb (ix3 (0 : Fin 1) n j)) = _
  refine congrArg (V c (Pipeline.arrRef spec1 0)) (funext fun a => Fin.ext ?_)
  match a with
  | ⟨0, _⟩ => show (cfg1.win 0).index t (0 : Fin 3) * 1 + 1 * 0 = b.val; rw [ia, hb]; omega
  | ⟨1, _⟩ => show (cfg1.win 0).index t (1 : Fin 3) * 1024 + 1 * n.val = r.val; rw [ib, hr]; omega
  | ⟨2, _⟩ => show (cfg1.win 0).index t (2 : Fin 3) * 1024 + 1 * j.val = k.val; rw [ic, hk]; omega

theorem val1_featBlk_apply (c : Dev nD) (t : Fin cfg1.N) (j : Fin 1024) (e : Fin 128) (b : Fin 16) (k : Fin 2048)
    (hb : b.val = t.val / 4) (hk : k.val = t.val % 2 * 1024 + j.val) :
    val1_featBlk V c t (ix3 (0 : Fin 1) j e) = V c (Pipeline.arrRef spec1 1) (ix3 b k e) := by
  obtain ⟨-, -, -, id', ie, ig, -⟩ := val1_idx t
  show V c (Pipeline.arrRef spec1 1) (((cfg1.win 1).blk t).view.emb (ix3 (0 : Fin 1) j e)) = _
  refine congrArg (V c (Pipeline.arrRef spec1 1)) (funext fun a => Fin.ext ?_)
  match a with
  | ⟨0, _⟩ => show (cfg1.win 1).index t (0 : Fin 3) * 1 + 1 * 0 = b.val; rw [id', hb]; omega
  | ⟨1, _⟩ => show (cfg1.win 1).index t (1 : Fin 3) * 1024 + 1 * j.val = k.val; rw [ie, hk]; omega
  | ⟨2, _⟩ => show (cfg1.win 1).index t (2 : Fin 3) * 128 + 1 * e.val = e.val; rw [ig]; omega

theorem val1_wBlk_eq (c : Dev nD) (t : Fin cfg1.N) : (iblk1 V c 2 t : Vec Ideal S128x128 .f32) = V c (Pipeline.arrRef spec1 2) := by
  obtain ⟨-, -, -, -, -, -, ih, ii, -⟩ := val1_idx t
  funext y
  obtain ⟨p, q, rfl⟩ : ∃ (p : Fin 128) (q : Fin 128), y = ix2 p q := ⟨y 0, y 1, eq_ix2 y⟩
  show V c (Pipeline.arrRef spec1 2) (((cfg1.win 2).blk t).view.emb (ix2 p q)) = V c (Pipeline.arrRef spec1 2) (ix2 p q)
  refine congrArg (V c (Pipeline.arrRef spec1 2)) (funext fun a => Fin.ext ?_)
  match a with
  | ⟨0, _⟩ => show (cfg1.win 2).index t (0 : Fin 2) * 128 + 1 * p.val = p.val; rw [ih]; omega
  | ⟨1, _⟩ => show (cfg1.win 2).index t (1 : Fin 2) * 128 + 1 * q.val = q.val; rw [ii]; omega
theorem val1_biasBlk_eq (c : Dev nD) (t : Fin cfg1.N) : (iblk1 V c 3 t : Vec Ideal S128 .f32) = V c (Pipeline.arrRef spec1 3) := by
  obtain ⟨-, -, -, -, -, -, -, -, ij, -⟩ := val1_idx t
  funext y
  obtain ⟨p, rfl⟩ : ∃ (p : Fin 128), y = ix1 p := ⟨y 0, eq_ix1 y⟩
  show V c (Pipeline.arrRef spec1 3) (((cfg1.win 3).blk t).view.emb (ix1 p)) = V c (Pipeline.arrRef spec1 3) (ix1 p)
  refine congrArg (V c (Pipeline.arrRef spec1 3)) (funext fun a => Fin.ext ?_)
  match a with
  | ⟨0, _⟩ => show (cfg1.win 3).index t (0 : Fin 1) * 128 + 1 * p.val = p.val; rw [ij]; omega
theorem val1_scaleBlk_eq (c : Dev nD) (t : Fin cfg1.N) : (iblk1 V c 4 t : Vec Ideal S128 .f32) = V c (Pipeline.arrRef spec1 4) := by
  obtain ⟨-, -, -, -, -, -, -, -, -, ik, -⟩ := val1_idx t
  funext y
  obtain ⟨p, rfl⟩ : ∃ (p : Fin 128), y = ix1 p := ⟨y 0, eq_ix1 y⟩
  show V c (Pipeline.arrRef spec1 4) (((cfg1.win 4).blk t).view.emb (ix1 p)) = V c (Pipeline.arrRef spec1 4) (ix1 p)
  refine congrArg (V c (Pipeline.arrRef spec1 4)) (funext fun a => Fin.ext ?_)
  match a with
  | ⟨0, _⟩ => show (cfg1.win 4).index t (0 : Fin 1) * 128 + 1 * p.val = p.val; rw [ik]; omega
theorem val1_shiftBlk_eq (c : Dev nD) (t : Fin cfg1.N) : (iblk1 V c 5 t : Vec Ideal S128 .f32) = V c (Pipeline.arrRef spec1 5) := by
  obtain ⟨-, -, -, -, -, -, -, -, -, -, il, -⟩ := val1_idx t
  funext y
  obtain ⟨p, rfl⟩ : ∃ (p : Fin 128), y = ix1 p := ⟨y 0, eq_ix1 y⟩
  show V c (Pipeline.arrRef spec1 5) (((cfg1.win 5).blk t).view.emb (ix1 p)) = V c (Pipeline.arrRef spec1 5) (ix1 p)
  refine congrArg (V c (Pipeline.arrRef spec1 5)) (funext fun a => Fin.ext ?_)
  match a with
  | ⟨0, _⟩ => show (cfg1.win 5).index t (0 : Fin 1) * 128 + 1 * p.val = p.val; rw [il]; omega

theorem val1_flushed (c : Dev nD) (t : Fin cfg1.N) (hf : (cfg1.win 6).flush t = true) :
    (dat1 (F := Ideal) V c).flushed 6 t
      = ((cfg1.win 6).blk t).view.read (Elt Ideal) (Cert.Gcn.layer (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))) := by
  have ht : t.val % 2 = 1 := (flush1_6 t).mp hf
  have hpar : ¬t.val % 2 = 0 := by omega
  have hpos := val1_lt t
  obtain ⟨-, -, -, -, -, -, -, -, -, -, -, im, io, ip⟩ := val1_idx t
  show (cfg1.win 6).cut (grid1.coords t) ((dat1 V c).after 6 t) = _
  rw [after1_6, res1_odd V c t hpar, val1_wBlk_eq, val1_biasBlk_eq, val1_scaleBlk_eq, val1_shiftBlk_eq]
  funext y
  obtain ⟨u, n, d, rfl⟩ : ∃ (u : Fin 1) (n : Fin 1024) (d : Fin 128), y = ix3 u n d := ⟨y 0, y 1, y 2, eq_ix3 y⟩
  obtain rfl : u = 0 := Subsingleton.elim _ _
  have hemb : ((cfg1.win 6).blk t).view.emb (ix3 (0 : Fin 1) n d)
      = ix3 (⟨t.val / 4, by omega⟩ : Fin 16) (⟨t.val / 2 % 2 * 1024 + n.val, by omega⟩ : Fin 2048) d :=
    funext fun a => Fin.ext (by
      match a with
      | ⟨0, _⟩ => show (cfg1.win 6).index t (0 : Fin 3) * 1 + 1 * 0 = t.val / 4; rw [im]; omega
      | ⟨1, _⟩ => show (cfg1.win 6).index t (1 : Fin 3) * 1024 + 1 * n.val = t.val / 2 % 2 * 1024 + n.val; rw [io]; omega
      | ⟨2, _⟩ => show (cfg1.win 6).index t (2 : Fin 3) * 128 + 1 * d.val = d.val; rw [ip]; omega)
  show k0_pay3 (F := Ideal) (k0_pay2 (val1_adjBlk V c t) (val1_featBlk V c t)
        (k0_pay2 (val1_adjBlk V c (prev1 t)) (val1_featBlk V c (prev1 t)) (k0_pay1 (F := Ideal))))
      (V c (Pipeline.arrRef spec1 2)) (V c (Pipeline.arrRef spec1 3)) (V c (Pipeline.arrRef spec1 4))
      (V c (Pipeline.arrRef spec1 5)) (ix3 (0 : Fin 1) n d)
    = (Cert.Gcn.layer (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))) (((cfg1.win 6).blk t).view.emb (ix3 (0 : Fin 1) n d))
  rw [hemb]
  exact Pay.core (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (val1_adjBlk V c (prev1 t)) (val1_adjBlk V c t) (val1_featBlk V c (prev1 t)) (val1_featBlk V c t)
    ⟨t.val / 4, by omega⟩ ⟨t.val / 2 % 2 * 1024 + n.val, by omega⟩ n
    (fun j => val1_adjBlk_apply V c (prev1 t) n j _ _ _ (by show t.val / 4 = (t.val - 1) / 4; omega)
      (by show t.val / 2 % 2 * 1024 + n.val = (t.val - 1) / 2 % 2 * 1024 + n.val; omega)
      (by show j.val = (t.val - 1) % 2 * 1024 + j.val; omega))
    (fun j => val1_adjBlk_apply V c t n j _ _ _ rfl rfl (by show 1024 + j.val = t.val % 2 * 1024 + j.val; omega))
    (fun j e => val1_featBlk_apply V c (prev1 t) j e _ _ (by show t.val / 4 = (t.val - 1) / 4; omega)
      (by show j.val = (t.val - 1) % 2 * 1024 + j.val; omega))
    (fun j e => val1_featBlk_apply V c t j e _ _ rfl (by show 1024 + j.val = t.val % 2 * 1024 + j.val; omega))
    d

theorem val1_cover (i : Cert.Gcn.SH.Idx) :
    ∃ t : Fin cfg1.N, (cfg1.win 6).flush t = true ∧ i ∈ ((cfg1.win 6).blk t).view.set := by
  have hpar : (i 0).val < 16 := (i 0).isLt
  have hrow : (i 1).val < 2048 := (i 1).isLt
  have hlane : (i 2).val < 128 := (i 2).isLt
  obtain ⟨t, ht⟩ : ∃ t : Fin cfg1.N, t.val = 4 * (i 0).val + 2 * ((i 1).val / 1024) + 1 :=
    ⟨⟨4 * (i 0).val + 2 * ((i 1).val / 1024) + 1, lt_of_lt_of_eq (by omega) N_1.symm⟩, rfl⟩
  obtain ⟨-, -, -, -, -, -, -, -, -, -, -, im, io, ip⟩ := val1_idx t
  refine ⟨t, (flush1_6 t).mpr (by omega), ?_⟩
  have hi : ((cfg1.win 6).blk t).view.emb
      (ix3 (0 : Fin 1) (⟨(i 1).val % 1024, Nat.mod_lt _ (by decide)⟩ : Fin 1024) (⟨(i 2).val, hlane⟩ : Fin 128)) = i :=
    funext fun a => Fin.ext (by
      match a with
      | ⟨0, _⟩ => show (cfg1.win 6).index t (0 : Fin 3) * 1 + 1 * 0 = (i 0).val; rw [im]; omega
      | ⟨1, _⟩ => show (cfg1.win 6).index t (1 : Fin 3) * 1024 + 1 * ((i 1).val % 1024) = (i 1).val; rw [io]; omega
      | ⟨2, _⟩ => show (cfg1.win 6).index t (2 : Fin 3) * 128 + 1 * (i 2).val = (i 2).val; rw [ip]; omega)
  exact Eq.mp (congrArg (fun x => x ∈ ((cfg1.win 6).blk t).view.set) hi) (((cfg1.win 6).blk t).view.emb_mem_set _)

theorem value1 (c : Dev nD) :
    (dat1 (F := Ideal) V c).arrAt 6 cfg1.N
      = Cert.Gcn.layer (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 6 _ (val1_flushed V c) (fun i => val1_cover i)

end Cert.KernelIdeal.Hand

end
-- ==== Proof.KI.R2.Value.lean ====
import proofs.«151264_j87634512708198_1_alg».proof.Proof.KI.R2.Frame
import proofs.«151264_j87634512708198_1_alg».proof.Proof.KI.Pay
import proofs.«151264_j87634512708198_1_alg».proof.Proof.Spec
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable (V : (c : Dev nD) → (b : Ref sig .tc) → Buf (Elt Ideal) ((c : Thread nD τ).loc b))

abbrev val2_adjBlk (c : Dev nD) (t : Fin cfg2.N) : Vec Ideal S1x1024x1024 .f32 := iblk2 V c 0 t
abbrev val2_featBlk (c : Dev nD) (t : Fin cfg2.N) : Vec Ideal S1x1024x128 .f32 := iblk2 V c 1 t

theorem val2_lt (t : Fin cfg2.N) : t.val < 64 := by
  have hN : cfg2.N = 64 := N_2
  have := t.isLt
  omega

theorem val2_idx : ∀ t : Fin cfg2.N,
    (cfg2.win 0).index t (0 : Fin 3) = t.val / 4 ∧ (cfg2.win 0).index t (1 : Fin 3) = t.val / 2 % 2
    ∧ (cfg2.win 0).index t (2 : Fin 3) = t.val % 2
    ∧ (cfg2.win 1).index t (0 : Fin 3) = t.val / 4 ∧ (cfg2.win 1).index t (1 : Fin 3) = t.val % 2
    ∧ (cfg2.win 1).index t (2 : Fin 3) = 0
    ∧ (cfg2.win 2).index t (0 : Fin 2) = 0 ∧ (cfg2.win 2).index t (1 : Fin 2) = 0
    ∧ (cfg2.win 3).index t (0 : Fin 1) = 0 ∧ (cfg2.win 4).index t (0 : Fin 1) = 0 ∧ (cfg2.win 5).index t (0 : Fin 1) = 0
    ∧ (cfg2.win 6).index t (0 : Fin 3) = t.val / 4 ∧ (cfg2.win 6).index t (1 : Fin 3) = t.val / 2 % 2
    ∧ (cfg2.win 6).index t (2 : Fin 3) = 0 :=
  (by decide +kernel : ∀ t : Fin grid2.N, _)

theorem val2_adjBlk_apply (c : Dev nD) (t : Fin cfg2.N) (n j : Fin 1024) (b : Fin 16) (r k : Fin 2048)
    (hb : b.val = t.val / 4) (hr : r.val = t.val / 2 % 2 * 1024 + n.val) (hk : k.val = t.val % 2 * 1024 + j.val) :
    val2_adjBlk V c t (ix3 (0 : Fin 1) n j) = V c (Pipeline.arrRef spec2 0) (ix3 b r k) := by
  obtain ⟨ia, ib, ic, -⟩ := val2_idx t
  show V c (Pipeline.arrRef spec2 0) (((cfg2.win 0).blk t).view.emb (ix3 (0 : Fin 1) n j)) = _
  refine congrArg (V c (Pipeline.arrRef spec2 0)) (funext fun a => Fin.ext ?_)
  match a with
  | ⟨0, _⟩ => show (cfg2.win 0).index t (0 : Fin 3) * 1 + 1 * 0 = b.val; rw [ia, hb]; omega
  | ⟨1, _⟩ => show (cfg2.win 0).index t (1 : Fin 3) * 1024 + 1 * n.val = r.val; rw [ib, hr]; omega
  | ⟨2, _⟩ => show (cfg2.win 0).index t (2 : Fin 3) * 1024 + 1 * j.val = k.val; rw [ic, hk]; omega

theorem val2_featBlk_apply (c : Dev nD) (t : Fin cfg2.N) (j : Fin 1024) (e : Fin 128) (b : Fin 16) (k : Fin 2048)
    (hb : b.val = t.val / 4) (hk : k.val = t.val % 2 * 1024 + j.val) :
    val2_featBlk V c t (ix3 (0 : Fin 1) j e) = V c (Pipeline.arrRef spec2 1) (ix3 b k e) := by
  obtain ⟨-, -, -, id', ie, ig, -⟩ := val2_idx t
  show V c (Pipeline.arrRef spec2 1) (((cfg2.win 1).blk t).view.emb (ix3 (0 : Fin 1) j e)) = _
  refine congrArg (V c (Pipeline.arrRef spec2 1)) (funext fun a => Fin.ext ?_)
  match a with
  | ⟨0, _⟩ => show (cfg2.win 1).index t (0 : Fin 3) * 1 + 1 * 0 = b.val; rw [id', hb]; omega
  | ⟨1, _⟩ => show (cfg2.win 1).index t (1 : Fin 3) * 1024 + 1 * j.val = k.val; rw [ie, hk]; omega
  | ⟨2, _⟩ => show (cfg2.win 1).index t (2 : Fin 3) * 128 + 1 * e.val = e.val; rw [ig]; omega

theorem val2_wBlk_eq (c : Dev nD) (t : Fin cfg2.N) : (iblk2 V c 2 t : Vec Ideal S128x128 .f32) = V c (Pipeline.arrRef spec2 2) := by
  obtain ⟨-, -, -, -, -, -, ih, ii, -⟩ := val2_idx t
  funext y
  obtain ⟨p, q, rfl⟩ : ∃ (p : Fin 128) (q : Fin 128), y = ix2 p q := ⟨y 0, y 1, eq_ix2 y⟩
  show V c (Pipeline.arrRef spec2 2) (((cfg2.win 2).blk t).view.emb (ix2 p q)) = V c (Pipeline.arrRef spec2 2) (ix2 p q)
  refine congrArg (V c (Pipeline.arrRef spec2 2)) (funext fun a => Fin.ext ?_)
  match a with
  | ⟨0, _⟩ => show (cfg2.win 2).index t (0 : Fin 2) * 128 + 1 * p.val = p.val; rw [ih]; omega
  | ⟨1, _⟩ => show (cfg2.win 2).index t (1 : Fin 2) * 128 + 1 * q.val = q.val; rw [ii]; omega
theorem val2_biasBlk_eq (c : Dev nD) (t : Fin cfg2.N) : (iblk2 V c 3 t : Vec Ideal S128 .f32) = V c (Pipeline.arrRef spec2 3) := by
  obtain ⟨-, -, -, -, -, -, -, -, ij, -⟩ := val2_idx t
  funext y
  obtain ⟨p, rfl⟩ : ∃ (p : Fin 128), y = ix1 p := ⟨y 0, eq_ix1 y⟩
  show V c (Pipeline.arrRef spec2 3) (((cfg2.win 3).blk t).view.emb (ix1 p)) = V c (Pipeline.arrRef spec2 3) (ix1 p)
  refine congrArg (V c (Pipeline.arrRef spec2 3)) (funext fun a => Fin.ext ?_)
  match a with
  | ⟨0, _⟩ => show (cfg2.win 3).index t (0 : Fin 1) * 128 + 1 * p.val = p.val; rw [ij]; omega
theorem val2_scaleBlk_eq (c : Dev nD) (t : Fin cfg2.N) : (iblk2 V c 4 t : Vec Ideal S128 .f32) = V c (Pipeline.arrRef spec2 4) := by
  obtain ⟨-, -, -, -, -, -, -, -, -, ik, -⟩ := val2_idx t
  funext y
  obtain ⟨p, rfl⟩ : ∃ (p : Fin 128), y = ix1 p := ⟨y 0, eq_ix1 y⟩
  show V c (Pipeline.arrRef spec2 4) (((cfg2.win 4).blk t).view.emb (ix1 p)) = V c (Pipeline.arrRef spec2 4) (ix1 p)
  refine congrArg (V c (Pipeline.arrRef spec2 4)) (funext fun a => Fin.ext ?_)
  match a with
  | ⟨0, _⟩ => show (cfg2.win 4).index t (0 : Fin 1) * 128 + 1 * p.val = p.val; rw [ik]; omega
theorem val2_shiftBlk_eq (c : Dev nD) (t : Fin cfg2.N) : (iblk2 V c 5 t : Vec Ideal S128 .f32) = V c (Pipeline.arrRef spec2 5) := by
  obtain ⟨-, -, -, -, -, -, -, -, -, -, il, -⟩ := val2_idx t
  funext y
  obtain ⟨p, rfl⟩ : ∃ (p : Fin 128), y = ix1 p := ⟨y 0, eq_ix1 y⟩
  show V c (Pipeline.arrRef spec2 5) (((cfg2.win 5).blk t).view.emb (ix1 p)) = V c (Pipeline.arrRef spec2 5) (ix1 p)
  refine congrArg (V c (Pipeline.arrRef spec2 5)) (funext fun a => Fin.ext ?_)
  match a with
  | ⟨0, _⟩ => show (cfg2.win 5).index t (0 : Fin 1) * 128 + 1 * p.val = p.val; rw [il]; omega

theorem val2_flushed (c : Dev nD) (t : Fin cfg2.N) (hf : (cfg2.win 6).flush t = true) :
    (dat2 (F := Ideal) V c).flushed 6 t
      = ((cfg2.win 6).blk t).view.read (Elt Ideal) (Cert.Gcn.layer (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))) := by
  have ht : t.val % 2 = 1 := (flush2_6 t).mp hf
  have hpar : ¬t.val % 2 = 0 := by omega
  have hpos := val2_lt t
  obtain ⟨-, -, -, -, -, -, -, -, -, -, -, im, io, ip⟩ := val2_idx t
  show (cfg2.win 6).cut (grid2.coords t) ((dat2 V c).after 6 t) = _
  rw [after2_6, res2_odd V c t hpar, val2_wBlk_eq, val2_biasBlk_eq, val2_scaleBlk_eq, val2_shiftBlk_eq]
  funext y
  obtain ⟨u, n, d, rfl⟩ : ∃ (u : Fin 1) (n : Fin 1024) (d : Fin 128), y = ix3 u n d := ⟨y 0, y 1, y 2, eq_ix3 y⟩
  obtain rfl : u = 0 := Subsingleton.elim _ _
  have hemb : ((cfg2.win 6).blk t).view.emb (ix3 (0 : Fin 1) n d)
      = ix3 (⟨t.val / 4, by omega⟩ : Fin 16) (⟨t.val / 2 % 2 * 1024 + n.val, by omega⟩ : Fin 2048) d :=
    funext fun a => Fin.ext (by
      match a with
      | ⟨0, _⟩ => show (cfg2.win 6).index t (0 : Fin 3) * 1 + 1 * 0 = t.val / 4; rw [im]; omega
      | ⟨1, _⟩ => show (cfg2.win 6).index t (1 : Fin 3) * 1024 + 1 * n.val = t.val / 2 % 2 * 1024 + n.val; rw [io]; omega
      | ⟨2, _⟩ => show (cfg2.win 6).index t (2 : Fin 3) * 128 + 1 * d.val = d.val; rw [ip]; omega)
  show k0_pay3 (F := Ideal) (k0_pay2 (val2_adjBlk V c t) (val2_featBlk V c t)
        (k0_pay2 (val2_adjBlk V c (prev2 t)) (val2_featBlk V c (prev2 t)) (k0_pay1 (F := Ideal))))
      (V c (Pipeline.arrRef spec2 2)) (V c (Pipeline.arrRef spec2 3)) (V c (Pipeline.arrRef spec2 4))
      (V c (Pipeline.arrRef spec2 5)) (ix3 (0 : Fin 1) n d)
    = (Cert.Gcn.layer (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))) (((cfg2.win 6).blk t).view.emb (ix3 (0 : Fin 1) n d))
  rw [hemb]
  exact Pay.core (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (val2_adjBlk V c (prev2 t)) (val2_adjBlk V c t) (val2_featBlk V c (prev2 t)) (val2_featBlk V c t)
    ⟨t.val / 4, by omega⟩ ⟨t.val / 2 % 2 * 1024 + n.val, by omega⟩ n
    (fun j => val2_adjBlk_apply V c (prev2 t) n j _ _ _ (by show t.val / 4 = (t.val - 1) / 4; omega)
      (by show t.val / 2 % 2 * 1024 + n.val = (t.val - 1) / 2 % 2 * 1024 + n.val; omega)
      (by show j.val = (t.val - 1) % 2 * 1024 + j.val; omega))
    (fun j => val2_adjBlk_apply V c t n j _ _ _ rfl rfl (by show 1024 + j.val = t.val % 2 * 1024 + j.val; omega))
    (fun j e => val2_featBlk_apply V c (prev2 t) j e _ _ (by show t.val / 4 = (t.val - 1) / 4; omega)
      (by show j.val = (t.val - 1) % 2 * 1024 + j.val; omega))
    (fun j e => val2_featBlk_apply V c t j e _ _ rfl (by show 1024 + j.val = t.val % 2 * 1024 + j.val; omega))
    d

theorem val2_cover (i : Cert.Gcn.SH.Idx) :
    ∃ t : Fin cfg2.N, (cfg2.win 6).flush t = true ∧ i ∈ ((cfg2.win 6).blk t).view.set := by
  have hpar : (i 0).val < 16 := (i 0).isLt
  have hrow : (i 1).val < 2048 := (i 1).isLt
  have hlane : (i 2).val < 128 := (i 2).isLt
  obtain ⟨t, ht⟩ : ∃ t : Fin cfg2.N, t.val = 4 * (i 0).val + 2 * ((i 1).val / 1024) + 1 :=
    ⟨⟨4 * (i 0).val + 2 * ((i 1).val / 1024) + 1, lt_of_lt_of_eq (by omega) N_2.symm⟩, rfl⟩
  obtain ⟨-, -, -, -, -, -, -, -, -, -, -, im, io, ip⟩ := val2_idx t
  refine ⟨t, (flush2_6 t).mpr (by omega), ?_⟩
  have hi : ((cfg2.win 6).blk t).view.emb
      (ix3 (0 : Fin 1) (⟨(i 1).val % 1024, Nat.mod_lt _ (by decide)⟩ : Fin 1024) (⟨(i 2).val, hlane⟩ : Fin 128)) = i :=
    funext fun a => Fin.ext (by
      match a with
      | ⟨0, _⟩ => show (cfg2.win 6).index t (0 : Fin 3) * 1 + 1 * 0 = (i 0).val; rw [im]; omega
      | ⟨1, _⟩ => show (cfg2.win 6).index t (1 : Fin 3) * 1024 + 1 * ((i 1).val % 1024) = (i 1).val; rw [io]; omega
      | ⟨2, _⟩ => show (cfg2.win 6).index t (2 : Fin 3) * 128 + 1 * (i 2).val = (i 2).val; rw [ip]; omega)
  exact Eq.mp (congrArg (fun x => x ∈ ((cfg2.win 6).blk t).view.set) hi) (((cfg2.win 6).blk t).view.emb_mem_set _)

theorem value2 (c : Dev nD) :
    (dat2 (F := Ideal) V c).arrAt 6 cfg2.N
      = Cert.Gcn.layer (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 (F := Ideal) V c).arrAt_eq_of_cover 6 _ (val2_flushed V c) (fun i => val2_cover i)

end Cert.KernelIdeal.Hand

end
-- ==== Proof.KI.Final.lean ====
import proofs.«151264_j87634512708198_1_alg».proof.Proof.KI.Assemble
import proofs.«151264_j87634512708198_1_alg».proof.Proof.KI.R0.Value
import proofs.«151264_j87634512708198_1_alg».proof.Proof.KI.R1.Value
import proofs.«151264_j87634512708198_1_alg».proof.Proof.KI.R2.Value

noncomputable section

namespace Cert.KernelIdeal.Hand

open Cert.KernelIdeal.Gen
open Idealize.ShloMosaic Idealize.ShloMosaic.TcCoe
open Idealize.SL Idealize.SL.Sem

variable (m : (ℓ : Loc nD τ sig) → Buf (Elt Ideal) ℓ)

def layer1 (c : Dev nD) : Cert.Gcn.SH.Idx → EReal :=
  Cert.Gcn.layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))

def layer2 (c : Dev nD) : Cert.Gcn.SH.Idx → EReal :=
  Cert.Gcn.layer (m ((c : Thread nD τ).loc main_arg1)) (layer1 m c) (m ((c : Thread nD τ).loc main_arg6)) (m ((c : Thread nD τ).loc main_arg7)) (m ((c : Thread nD τ).loc main_arg8)) (m ((c : Thread nD τ).loc main_arg9))

def layer3 (c : Dev nD) : Cert.Gcn.SH.Idx → EReal :=
  Cert.Gcn.layer (m ((c : Thread nD τ).loc main_arg1)) (layer2 m c) (m ((c : Thread nD τ).loc main_arg10)) (m ((c : Thread nD τ).loc main_arg11)) (m ((c : Thread nD τ).loc main_arg12)) (m ((c : Thread nD τ).loc main_arg13))

theorem Wv1_v0 (c : Dev nD) : Wv1 m c (Proc.devRef .tc main_v0) = layer1 m c :=
  (out0 m c).trans (value0 (Vof (Wv0 m)) c)

theorem Wv2_v1 (c : Dev nD) : Wv2 m c (Proc.devRef .tc main_v1) = layer2 m c := by
  refine (out1 m c).trans ((value1 (Vof (Wv1 m)) c).trans ?_)
  show Cert.Gcn.layer (Wv1 m c (Proc.devRef .tc main_arg1)) (Wv1 m c (Proc.devRef .tc main_v0)) (Wv1 m c (Proc.devRef .tc main_arg6))
    (Wv1 m c (Proc.devRef .tc main_arg7)) (Wv1 m c (Proc.devRef .tc main_arg8)) (Wv1 m c (Proc.devRef .tc main_arg9)) = _
  rw [keep0 m c main_arg1 (by decide), Wv1_v0 m c, keep0 m c main_arg6 (by decide), keep0 m c main_arg7 (by decide),
    keep0 m c main_arg8 (by decide), keep0 m c main_arg9 (by decide)]
  rfl

theorem Wv3_v2 (c : Dev nD) : Wv3 m c (Proc.devRef .tc main_v2) = layer3 m c := by
  refine (out2 m c).trans ((value2 (Vof (Wv2 m)) c).trans ?_)
  show Cert.Gcn.layer (Wv2 m c (Proc.devRef .tc main_arg1)) (Wv2 m c (Proc.devRef .tc main_v1)) (Wv2 m c (Proc.devRef .tc main_arg10))
    (Wv2 m c (Proc.devRef .tc main_arg11)) (Wv2 m c (Proc.devRef .tc main_arg12)) (Wv2 m c (Proc.devRef .tc main_arg13)) = _
  rw [keep1 m c main_arg1 (by decide), keep0 m c main_arg1 (by decide), Wv2_v1 m c,
    keep1 m c main_arg10 (by decide), keep0 m c main_arg10 (by decide), keep1 m c main_arg11 (by decide), keep0 m c main_arg11 (by decide),
    keep1 m c main_arg12 (by decide), keep0 m c main_arg12 (by decide), keep1 m c main_arg13 (by decide), keep0 m c main_arg13 (by decide)]
  rfl

end Cert.KernelIdeal.Hand

end
-- ==== Proof.RefSide.lean ====
import proofs.«151264_j87634512708198_1_alg».proof.Proof.RefRead
import proofs.«151264_j87634512708198_1_alg».proof.Proof.Spec

noncomputable section

namespace Cert.RefSide

open Cert.ReferenceIdeal Cert.ReferenceIdeal.Gen Cert.ReferenceIdeal.ReadP
open Idealize.ShloMosaic Idealize.ShloMosaic.TcCoe Idealize.SL.Sem Idealize.ShloMosaic.StableHlo Idealize.ShloMosaic.ValueIdx

abbrev XH : Type := (⟨S16x2048x128, .f32⟩ : BufTy).Contents (Elt Ideal)
abbrev XA : Type := (⟨S16x2048x2048, .f32⟩ : BufTy).Contents (Elt Ideal)
abbrev XW : Type := (⟨S128x128, .f32⟩ : BufTy).Contents (Elt Ideal)
abbrev XV : Type := (⟨S128, .f32⟩ : BufTy).Contents (Elt Ideal)

section Places

variable (b : Fin 16) (n : Fin 2048)

theorem agg_adj_place (e : Fin 128) (j : Fin 2048) : lidx_main_v0 (ix3 b n e) j = ix3 b n j :=
  funext fun a => Fin.ext (by match a with | ⟨0, _⟩ => rfl | ⟨1, _⟩ => rfl | ⟨2, _⟩ => rfl)

theorem agg_feat_place (e : Fin 128) (j : Fin 2048) : ridx_main_v0 (ix3 b n e) j = ix3 b j e :=
  funext fun a => Fin.ext (by match a with | ⟨0, _⟩ => rfl | ⟨1, _⟩ => rfl | ⟨2, _⟩ => rfl)

theorem lin_row_place (d e : Fin 128) : lidx_main_v1 (ix3 b n d) e = ix3 b n e :=
  funext fun a => Fin.ext (by match a with | ⟨0, _⟩ => rfl | ⟨1, _⟩ => rfl | ⟨2, _⟩ => rfl)

theorem lin_weight_place (d e : Fin 128) : ridx_main_v1 (ix3 b n d) e = ix2 e d :=
  funext fun a => Fin.ext (by match a with | ⟨0, _⟩ => rfl | ⟨1, _⟩ => rfl)

theorem bias_place (d : Fin 128) : idx_main_v2 (idx_main_v3 (ix3 b n d)) = ix1 d :=
  funext fun a => Fin.ext (by match a with | ⟨0, _⟩ => rfl)

theorem scale_place (d : Fin 128) : idx_main_v23 (idx_main_v24 (ix3 b n d)) = ix1 d :=
  funext fun a => Fin.ext (by match a with | ⟨0, _⟩ => rfl)

theorem shift_place (d : Fin 128) : idx_main_v26 (idx_main_v27 (ix3 b n d)) = ix1 d :=
  funext fun a => Fin.ext (by match a with | ⟨0, _⟩ => rfl)

theorem mean_place (d k : Fin 128) : idx_main_v5 (idx_main_v6 (idx_main_v9 (ix3 b n d))) k = ix3 b n k :=
  funext fun a => Fin.ext (by match a with | ⟨0, _⟩ => rfl | ⟨1, _⟩ => rfl | ⟨2, _⟩ => rfl)

theorem mean_place' (d k : Fin 128) : idx_main_v5 (idx_main_v6 (idx_main_v16 (ix3 b n d))) k = ix3 b n k :=
  funext fun a => Fin.ext (by match a with | ⟨0, _⟩ => rfl | ⟨1, _⟩ => rfl | ⟨2, _⟩ => rfl)

theorem var_place (d k : Fin 128) : idx_main_v12 (idx_main_v13 (idx_main_v21 (ix3 b n d))) k = ix3 b n k :=
  funext fun a => Fin.ext (by match a with | ⟨0, _⟩ => rfl | ⟨1, _⟩ => rfl | ⟨2, _⟩ => rfl)

end Places

theorem ref_layer (x0 : XH) (x1 : XA) (x2 : XW) (x3 x4 x5 : XV) :
    val_main_v29 (F := Ideal) x0 x1 x2 x3 x4 x5 = Cert.Gcn.layer x1 x0 x2 x3 x4 x5 := by
  funext i

  obtain ⟨b, n, d, rfl⟩ : ∃ (b : Fin 16) (n : Fin 2048) (d : Fin 128), i = ix3 b n d := ⟨i 0, i 1, i 2, eq_ix3 i⟩
  rw [Cert.Gcn.layer_ix3]

  simp only [val_main_v29_apply, val_main_v28_apply, val_main_v27_apply, val_main_v26_apply, val_main_v25_apply,
    val_main_v24_apply, val_main_v23_apply, val_main_v22_apply, val_main_v21_apply, val_main_v20_apply,
    val_main_v19_apply, val_main_v18_apply, val_main_v17_apply, val_main_v16_apply, val_main_v15_apply,
    val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply,
    val_main_call0_v0_apply, val_main_call0_cst_apply, val_main_cst_apply, val_main_cst_0_apply, val_main_cst_1_apply,
    val_main_cst_2_apply, val_main_cst_3_apply,
    agg_adj_place, agg_feat_place, lin_row_place, lin_weight_place, bias_place, scale_place, shift_place, mean_place,
    mean_place', var_place]

  simp only [Cert.Gcn.normRelu, Cert.Gcn.mean128, Cert.Gcn.lin, Cert.Gcn.agg, Ideal.maximumf_def, Ideal.addf_def,
    Ideal.mulf_def, Ideal.subf_def, Ideal.hostDivf_def, Ideal.hostUnary_rsqrt_def, Ideal.ofBits_def]

end Cert.RefSide

end
-- ==== Proof.RefRun.lean ====
import proofs.«151264_j87634512708198_1_alg».proof.Proof.RefBase
import proofs.«151264_j87634512708198_1_alg».proof.Proof.RefRead
import Idealize.ShloMosaic.Lib.StableHlo.Run
import Idealize.ShloMosaic.Lib.Pipeline.Frame

set_option maxRecDepth 8192

noncomputable section

namespace Cert.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

theorem res1 (V : Valuation τ sig (Elt F)) :
    after (ops1 (F := F)) V (Proc.devRef .tc main_v29)
      = val_main_v29 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp <;> rfl

theorem res2 (V : Valuation τ sig (Elt F)) :
    after (ops2 (F := F)) V (Proc.devRef .tc main_v59)
      = val_main_v29 (F := F) (V (Proc.devRef .tc main_v29)) (V (Proc.devRef .tc main_arg1)) (V (Proc.devRef .tc main_arg6)) (V (Proc.devRef .tc main_arg7)) (V (Proc.devRef .tc main_arg8)) (V (Proc.devRef .tc main_arg9)) := by
  after_results_simp <;> rfl

theorem res3 (V : Valuation τ sig (Elt F)) :
    after (ops3 (F := F)) V (Proc.devRef .tc main_v89)
      = val_main_v29 (F := F) (V (Proc.devRef .tc main_v59)) (V (Proc.devRef .tc main_arg1)) (V (Proc.devRef .tc main_arg10)) (V (Proc.devRef .tc main_arg11)) (V (Proc.devRef .tc main_arg12)) (V (Proc.devRef .tc main_arg13)) := by
  after_results_simp <;> rfl

abbrev args : List (Ref sig .tc) := [main_arg0, main_arg1, main_arg2, main_arg3, main_arg4, main_arg5, main_arg6, main_arg7, main_arg8, main_arg9, main_arg10, main_arg11, main_arg12, main_arg13]

/-- An argument is none of the buffers the operations write. -/
theorem ne_of_mem {b y : Ref sig .tc} (hb : b ∈ args) (hy : y ∉ args) : b ≠ y := fun e => hy (e ▸ hb)

/-- No operation of a layer writes an argument. -/
theorem keep1 (V : Valuation τ sig (Elt F)) (b : Ref sig .tc) (hb : b ∈ args) :
    after (ops1 (F := F)) V (Proc.devRef .tc b) = V (Proc.devRef .tc b) := by
  simp (disch := exact ne_of_mem hb (by decide)) only [after_cons, after_nil, nullary_result_ne', unary_result_ne', binary_result_ne', ternary_result_ne', quaternary_result_ne', reshape_result_ne', nary_result_ne', unaryIndexed_result_ne', binaryIndexed_result_ne']

theorem keep2 (V : Valuation τ sig (Elt F)) (b : Ref sig .tc) (hb : b ∈ args) :
    after (ops2 (F := F)) V (Proc.devRef .tc b) = V (Proc.devRef .tc b) := by
  simp (disch := exact ne_of_mem hb (by decide)) only [after_cons, after_nil, nullary_result_ne', unary_result_ne', binary_result_ne', ternary_result_ne', quaternary_result_ne', reshape_result_ne', nary_result_ne', unaryIndexed_result_ne', binaryIndexed_result_ne']

theorem keep3 (V : Valuation τ sig (Elt F)) (b : Ref sig .tc) (hb : b ∈ args) :
    after (ops3 (F := F)) V (Proc.devRef .tc b) = V (Proc.devRef .tc b) := by
  simp (disch := exact ne_of_mem hb (by decide)) only [after_cons, after_nil, nullary_result_ne', unary_result_ne', binary_result_ne', ternary_result_ne', quaternary_result_ne', reshape_result_ne', nary_result_ne', unaryIndexed_result_ne', binaryIndexed_result_ne']

theorem keep2_v29 (V : Valuation τ sig (Elt F)) : after (ops2 (F := F)) V (Proc.devRef .tc main_v29) = V (Proc.devRef .tc main_v29) := by after_results_simp <;> rfl
theorem keep3_v59 (V : Valuation τ sig (Elt F)) : after (ops3 (F := F)) V (Proc.devRef .tc main_v59) = V (Proc.devRef .tc main_v59) := by after_results_simp <;> rfl

theorem after_all (V : Valuation τ sig (Elt F)) :
    after (ops (F := F)) V = after ops3 (after ops2 (after ops1 V)) := by
  show after (ops1 ++ (ops2 ++ ops3)) V = _
  rw [StableHlo.after_append, StableHlo.after_append]

def layers (x0 : (⟨S16x2048x128, .f32⟩ : BufTy).Contents (Elt F)) (x1 : (⟨S16x2048x2048, .f32⟩ : BufTy).Contents (Elt F))
    (x2 : (⟨S128x128, .f32⟩ : BufTy).Contents (Elt F)) (x3 x4 x5 : (⟨S128, .f32⟩ : BufTy).Contents (Elt F))
    (x6 : (⟨S128x128, .f32⟩ : BufTy).Contents (Elt F)) (x7 x8 x9 : (⟨S128, .f32⟩ : BufTy).Contents (Elt F))
    (x10 : (⟨S128x128, .f32⟩ : BufTy).Contents (Elt F)) (x11 x12 x13 : (⟨S128, .f32⟩ : BufTy).Contents (Elt F)) :
    (⟨S16x2048x128, .f32⟩ : BufTy).Contents (Elt F) :=
  val_main_v29 (F := F) (val_main_v29 (F := F) (val_main_v29 (F := F) x0 x1 x2 x3 x4 x5) x1 x6 x7 x8 x9) x1 x10 x11 x12 x13

theorem res_all (V : Valuation τ sig (Elt F)) :
    after (ops (F := F)) V (Proc.devRef .tc main_v89)
      = layers (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_all, res3, keep2 _ main_arg1 (by decide), keep1 _ main_arg1 (by decide), keep2 _ main_arg10 (by decide), keep1 _ main_arg10 (by decide), keep2 _ main_arg11 (by decide), keep1 _ main_arg11 (by decide), keep2 _ main_arg12 (by decide), keep1 _ main_arg12 (by decide),
    keep2 _ main_arg13 (by decide), keep1 _ main_arg13 (by decide), res2, keep1 _ main_arg1 (by decide), keep1 _ main_arg6 (by decide), keep1 _ main_arg7 (by decide), keep1 _ main_arg8 (by decide), keep1 _ main_arg9 (by decide), res1]
  rfl

theorem kept (V : Valuation τ sig (Elt F)) (b : Ref sig .tc) (hb : b ∈ args) :
    after (ops (F := F)) V (Proc.devRef .tc b) = V (Proc.devRef .tc b) := by
  rw [after_all, keep3 _ b hb, keep2 _ b hb, keep1 _ b hb]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = layers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ ∀ b ∈ args, r.2.mem ((c.tc : Thread nD τ).loc b) = m ((c.tc : Thread nD τ).loc b) :=
  (θ_run defs _ _).mono (fun _ h c =>
    ⟨(h c main_v89).trans (res_all (launchContents m c)), fun b hb => (h c b).trans (kept (launchContents m c) b hb)⟩)
    (run_seq scopedRefs_eq scopedSems_eq defs main (fun _ => ops) main_eq (fun _ => ops_sub) m ρ)

end Cert.RefRun

end
-- ==== Proof.lean ====
/-
  Three graph-convolution layers, tiled, against the plain reference: on the extended reals the tiled aggregation is zero
  plus the sums over the two halves of the 2048 neighbours, which is the reference's one sum; no finiteness is used.
-/
import proofs.«151264_j87634512708198_1_alg».proof.Defs
import proofs.«151264_j87634512708198_1_alg».proof.Proof.Gen.Kernel
import proofs.«151264_j87634512708198_1_alg».proof.Proof.Gen.KernelIdeal
import proofs.«151264_j87634512708198_1_alg».proof.Proof.Gen.ReferenceIdeal
import proofs.«151264_j87634512708198_1_alg».proof.Proof.Gen.Pre_finite_inputs
import proofs.«151264_j87634512708198_1_alg».proof.Proof.K.Assemble
import proofs.«151264_j87634512708198_1_alg».proof.Proof.KI.Final
import proofs.«151264_j87634512708198_1_alg».proof.Proof.RefSide
import proofs.«151264_j87634512708198_1_alg».proof.Proof.RefRun

noncomputable section

namespace Cert.Proof

open Idealize.ShloMosaic Idealize.ShloMosaic.TcCoe Idealize.SL.Sem

theorem frame_k : @Cert.frame_Kernel Cert.Kernel.Gen.facts Cert.Pre_finite_inputs.Gen.facts := fun m ρ _ =>
  (θ_run Cert.Kernel.defs _ _).mono (fun _ h c => by
    and_intros <;> exact (h c _ (by decide)).trans (Cert.Kernel.Hand.kept m c _ (by decide) (by decide) (by decide)))
    (Cert.Kernel.Hand.ends (F := Bits) m ρ)

theorem frame_ki : @Cert.frame_KernelIdeal Cert.KernelIdeal.Gen.facts Cert.Pre_finite_inputs.Gen.facts := fun m ρ _ =>
  (θ_run Cert.KernelIdeal.defs _ _).mono (fun _ h c => by
    and_intros <;> exact (h c _ (by decide)).trans (Cert.KernelIdeal.Hand.kept m c _ (by decide) (by decide) (by decide)))
    (Cert.KernelIdeal.Hand.ends (F := Ideal) m ρ)

theorem frame_ri : @Cert.frame_ReferenceIdeal Cert.ReferenceIdeal.Gen.facts Cert.Pre_finite_inputs.Gen.facts :=
  fun m ρ _ => (θ_run Cert.ReferenceIdeal.defs _ _).mono (fun _ h c => by and_intros <;> exact (h c).2 _ (by decide))
    (Cert.RefRun.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.layer3 m c, (θ_run Cert.KernelIdeal.defs _ _).mono (fun _ h c => by
    and_intros <;> first
      | exact (h c _ (by decide)).trans (Cert.KernelIdeal.Hand.Wv3_v2 m c)
      | exact (h c _ (by decide)).trans (Cert.KernelIdeal.Hand.kept m c _ (by decide) (by decide) (by decide)))
    (Cert.KernelIdeal.Hand.ends m ρ), ?_⟩
  refine (θ_run Cert.ReferenceIdeal.defs _ _).mono (fun _ h c => ⟨(h c).1.trans ?_, by and_intros <;> exact (h c).2 _ (by decide)⟩)
    (Cert.RefRun.run (F := Ideal) m' ρ')
  unfold Cert.RefRun.layers
  rw [Cert.RefSide.ref_layer, Cert.RefSide.ref_layer, Cert.RefSide.ref_layer]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
